-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v606) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16 : Shape := ⟨2, ![512, 16]⟩
abbrev S512x512 : Shape := ⟨2, ![512, 512]⟩
abbrev S100000x128 : Shape := ⟨2, ![100000, 128]⟩
abbrev S21x10 : Shape := ⟨2, ![21, 10]⟩
abbrev S10 : Shape := ⟨1, ![10]⟩
abbrev S10x5 : Shape := ⟨2, ![10, 5]⟩
abbrev S5 : Shape := ⟨1, ![5]⟩
abbrev S5x1 : Shape := ⟨2, ![5, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S21x10 : S_.BroadcastsInDim S21x10 (![] : Fin 0 → Fin S21x10.rank)
  reducesTo_S21x10_S_d0_1 : S21x10.ReducesTo [0, 1] S_
  bcast_S_S10 : S_.BroadcastsInDim S10 (![] : Fin 0 → Fin S10.rank)
  reducesTo_S10_S_d0 : S10.ReducesTo [0] S_
  bcast_S_S10x5 : S_.BroadcastsInDim S10x5 (![] : Fin 0 → Fin S10x5.rank)
  reducesTo_S10x5_S_d0_1 : S10x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_
  bcast_S_S512x16 : S_.BroadcastsInDim S512x16 (![] : Fin 0 → Fin S512x16.rank)
  reducesTo_S512x16_S_d0_1 : S512x16.ReducesTo [0, 1] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg2 : IVec S512x16 32) (main_arg3 : IVec S512x512 32) (main_v49 : IVec S_ 1) : IVec S_ 1 :=
  let main_c_20 : IVec S_ 32 := constantI S_ 32 0#32
  let main_v50 : IVec S512x16 32 := broadcastInDim S512x16 ![] bcast_S_S512x16 main_c_20
  let main_v51 : IVec S512x16 1 := cmpi .sge main_arg2 main_v50
  let main_c_21 : IVec S_ 1 := constantI S_ 1 1#1
  let main_v52 : IVec S_ 1 := (fun x v => Host.reduce IntOp.andi x v reducesTo_S512x16_S_d0_1 h_S_) main_v51 main_c_21
  let main_v53 : IVec S_ 1 := andi main_v49 main_v52
  let main_c_22 : IVec S_ 32 := constantI S_ 32 100000#32
  let main_v54 : IVec S512x16 32 := broadcastInDim S512x16 ![] bcast_S_S512x16 main_c_22
  let main_v55 : IVec S512x16 1 := cmpi .slt main_arg2 main_v54
  let main_c_23 : IVec S_ 1 := constantI S_ 1 1#1
  let main_v56 : IVec S_ 1 := (fun x v => Host.reduce IntOp.andi x v reducesTo_S512x16_S_d0_1 h_S_) main_v55 main_c_23
  let main_v57 : IVec S_ 1 := andi main_v53 main_v56
  let main_c_24 : IVec S_ 32 := constantI S_ 32 0#32
  let main_v58 : IVec S512x512 32 := broadcastInDim S512x512 ![] bcast_S_S512x512 main_c_24
  let main_v59 : IVec S512x512 1 := cmpi .sge main_arg3 main_v58
  let main_c_25 : IVec S_ 1 := constantI S_ 1 1#1
  let main_v60 : IVec S_ 1 := (fun x v => Host.reduce IntOp.andi x v reducesTo_S512x512_S_d0_1 h_S_) main_v59 main_c_25
  let main_v61 : IVec S_ 1 := andi main_v57 main_v60
  let main_c_26 : IVec S_ 32 := constantI S_ 32 100000#32
  let main_v62 : IVec S512x512 32 := broadcastInDim S512x512 ![] bcast_S_S512x512 main_c_26
  let main_v63 : IVec S512x512 1 := cmpi .slt main_arg3 main_v62
  let main_c_27 : IVec S_ 1 := constantI S_ 1 1#1
  let main_v64 : IVec S_ 1 := (fun x v => Host.reduce IntOp.andi x v reducesTo_S512x512_S_d0_1 h_S_) main_v63 main_c_27
  let main_v65 : IVec S_ 1 := andi main_v61 main_v64
  main_v65

def fn_part2 {F : FTy → Type} [FloatOps F] (main_arg0 : IVec S512x16 32) (main_arg1 : IVec S512x512 32) (main_arg2 : IVec S512x16 32) (main_arg3 : IVec S512x512 32) (main_v33 : IVec S_ 1) : IVec S_ 1 :=
  let main_c_12 : IVec S_ 32 := constantI S_ 32 0#32
  let main_v34 : IVec S512x16 32 := broadcastInDim S512x16 ![] bcast_S_S512x16 main_c_12
  let main_v35 : IVec S512x16 1 := cmpi .sge main_arg0 main_v34
  let main_c_13 : IVec S_ 1 := constantI S_ 1 1#1
  let main_v36 : IVec S_ 1 := (fun x v => Host.reduce IntOp.andi x v reducesTo_S512x16_S_d0_1 h_S_) main_v35 main_c_13
  let main_v37 : IVec S_ 1 := andi main_v33 main_v36
  let main_c_14 : IVec S_ 32 := constantI S_ 32 100000#32
  let main_v38 : IVec S512x16 32 := broadcastInDim S512x16 ![] bcast_S_S512x16 main_c_14
  let main_v39 : IVec S512x16 1 := cmpi .slt main_arg0 main_v38
  let main_c_15 : IVec S_ 1 := constantI S_ 1 1#1
  let main_v40 : IVec S_ 1 := (fun x v => Host.reduce IntOp.andi x v reducesTo_S512x16_S_d0_1 h_S_) main_v39 main_c_15
  let main_v41 : IVec S_ 1 := andi main_v37 main_v40
  let main_c_16 : IVec S_ 32 := constantI S_ 32 0#32
  let main_v42 : IVec S512x512 32 := broadcastInDim S512x512 ![] bcast_S_S512x512 main_c_16
  let main_v43 : IVec S512x512 1 := cmpi .sge main_arg1 main_v42
  let main_c_17 : IVec S_ 1 := constantI S_ 1 1#1
  let main_v44 : IVec S_ 1 := (fun x v => Host.reduce IntOp.andi x v reducesTo_S512x512_S_d0_1 h_S_) main_v43 main_c_17
  let main_v45 : IVec S_ 1 := andi main_v41 main_v44
  let main_c_18 : IVec S_ 32 := constantI S_ 32 100000#32
  let main_v46 : IVec S512x512 32 := broadcastInDim S512x512 ![] bcast_S_S512x512 main_c_18
  let main_v47 : IVec S512x512 1 := cmpi .slt main_arg1 main_v46
  let main_c_19 : IVec S_ 1 := constantI S_ 1 1#1
  let main_v48 : IVec S_ 1 := (fun x v => Host.reduce IntOp.andi x v reducesTo_S512x512_S_d0_1 h_S_) main_v47 main_c_19
  let main_v49 : IVec S_ 1 := andi main_v45 main_v48
  fn_part3 (F := F) main_arg2 main_arg3 main_v49

def fn_part1 {F : FTy → Type} [FloatOps F] (main_arg0 : IVec S512x16 32) (main_arg1 : IVec S512x512 32) (main_arg2 : IVec S512x16 32) (main_arg3 : IVec S512x512 32) (main_arg8 : FVec F S5 .f32) (main_arg9 : FVec F S5x1 .f32) (main_arg10 : FVec F S1 .f32) (main_v13 : IVec S_ 1) (main_v16 : IVec S10x5 1) : IVec S_ 1 :=
  let main_c_5 : IVec S_ 1 := constantI S_ 1 1#1
  let main_v17 : IVec S_ 1 := (fun x v => Host.reduce IntOp.andi x v reducesTo_S10x5_S_d0_1 h_S_) main_v16 main_c_5
  let main_v18 : IVec S_ 1 := andi main_v13 main_v17
  let main_v19 : FVec F S5 .f32 := Host.absf main_arg8
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x1 .f32 := Host.absf main_arg9
  let main_cst_8 : FVec F S_ .f32 := constant S_ .f32 0x7F800000#32
  let main_v25 : FVec F S5x1 .f32 := broadcastInDim S5x1 ![] bcast_S_S5x1 main_cst_8
  let main_v26 : IVec S5x1 1 := cmpf .olt main_v24 main_v25
  let main_c_9 : IVec S_ 1 := constantI S_ 1 1#1
  let main_v27 : IVec S_ 1 := (fun x v => Host.reduce IntOp.andi x v reducesTo_S5x1_S_d0_1 h_S_) main_v26 main_c_9
  let main_v28 : IVec S_ 1 := andi main_v23 main_v27
  let main_v29 : FVec F S1 .f32 := Host.absf main_arg10
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg1 main_arg2 main_arg3 main_v33

def fn {F : FTy → Type} [FloatOps F] (main_arg0 : IVec S512x16 32) (main_arg1 : IVec S512x512 32) (main_arg2 : IVec S512x16 32) (main_arg3 : IVec S512x512 32) (main_arg4 : FVec F S100000x128 .f32) (main_arg5 : FVec F S21x10 .f32) (main_arg6 : FVec F S10 .f32) (main_arg7 : FVec F S10x5 .f32) (main_arg8 : FVec F S5 .f32) (main_arg9 : FVec F S5x1 .f32) (main_arg10 : FVec F S1 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S21x10 .f32 := Host.absf main_arg5
  let main_cst_0 : FVec F S_ .f32 := constant S_ .f32 0x7F800000#32
  let main_v5 : FVec F S21x10 .f32 := broadcastInDim S21x10 ![] bcast_S_S21x10 main_cst_0
  let main_v6 : IVec S21x10 1 := cmpf .olt main_v4 main_v5
  let main_c_1 : IVec S_ 1 := constantI S_ 1 1#1
  let main_v7 : IVec S_ 1 := (fun x v => Host.reduce IntOp.andi x v reducesTo_S21x10_S_d0_1 h_S_) main_v6 main_c_1
  let main_v8 : IVec S_ 1 := andi main_v3 main_v7
  let main_v9 : FVec F S10 .f32 := Host.absf main_arg6
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x5 .f32 := Host.absf main_arg7
  let main_cst_4 : FVec F S_ .f32 := constant S_ .f32 0x7F800000#32
  let main_v15 : FVec F S10x5 .f32 := broadcastInDim S10x5 ![] bcast_S_S10x5 main_cst_4
  let main_v16 : IVec S10x5 1 := cmpf .olt main_v14 main_v15
  fn_part1 (F := F) main_arg0 main_arg1 main_arg2 main_arg3 main_arg8 main_arg9 main_arg10 main_v13 main_v16
-- ==== Kernel.lean ====
abbrev S512x16 : Shape := ⟨2, ![512, 16]⟩
abbrev S512x512 : Shape := ⟨2, ![512, 512]⟩
abbrev S100000x128 : Shape := ⟨2, ![100000, 128]⟩
abbrev S21x10 : Shape := ⟨2, ![21, 10]⟩
abbrev S10 : Shape := ⟨1, ![10]⟩
abbrev S10x5 : Shape := ⟨2, ![10, 5]⟩
abbrev S5 : Shape := ⟨1, ![5]⟩
abbrev S5x1 : Shape := ⟨2, ![5, 1]⟩
abbrev S1 : Shape := ⟨1, ![1]⟩
abbrev S_ : Shape := ⟨0, ![]⟩
abbrev S512x16x1 : Shape := ⟨3, ![512, 16, 1]⟩
abbrev S1x1x1 : Shape := ⟨3, ![1, 1, 1]⟩
abbrev S512x16x128 : Shape := ⟨3, ![512, 16, 128]⟩
abbrev S512x512x1 : Shape := ⟨3, ![512, 512, 1]⟩
abbrev S512x512x128 : Shape := ⟨3, ![512, 512, 128]⟩
abbrev S512x1 : Shape := ⟨2, ![512, 1]⟩
abbrev S16x16x128 : Shape := ⟨3, ![16, 16, 128]⟩
abbrev S16x512x128 : Shape := ⟨3, ![16, 512, 128]⟩
abbrev S16x1 : Shape := ⟨2, ![16, 1]⟩
abbrev S16x16 : Shape := ⟨2, ![16, 16]⟩
abbrev S16x16x1 : Shape := ⟨3, ![16, 16, 1]⟩
abbrev S16x512 : Shape := ⟨2, ![16, 512]⟩
abbrev S16x512x1 : Shape := ⟨3, ![16, 512, 1]⟩
abbrev S16x16x512 : Shape := ⟨3, ![16, 16, 512]⟩
abbrev S16 : Shape := ⟨1, ![16]⟩
abbrev S16x21 : Shape := ⟨2, ![16, 21]⟩
abbrev S16x10 : Shape := ⟨2, ![16, 10]⟩
abbrev S1x10 : Shape := ⟨2, ![1, 10]⟩
abbrev S16x5 : Shape := ⟨2, ![16, 5]⟩
abbrev S1x5 : Shape := ⟨2, ![1, 5]⟩
abbrev S1x1 : Shape := ⟨2, ![1, 1]⟩

abbrev nBuf : Space → Nat
  | .hbm => 104
  | .vmem => 16
  | .smem => 0
  | _ => 0

abbrev bufTy : (tb : Table) → Fin (tcTables nBuf tb) → BufTy
  | .hbm, ⟨0, _⟩ => ⟨S512x16, .i32⟩
  | .hbm, ⟨1, _⟩ => ⟨S512x512, .i32⟩
  | .hbm, ⟨2, _⟩ => ⟨S512x16, .i32⟩
  | .hbm, ⟨3, _⟩ => ⟨S512x512, .i32⟩
  | .hbm, ⟨4, _⟩ => ⟨S100000x128, .f32⟩
  | .hbm, ⟨5, _⟩ => ⟨S21x10, .f32⟩
  | .hbm, ⟨6, _⟩ => ⟨S10, .f32⟩
  | .hbm, ⟨7, _⟩ => ⟨S10x5, .f32⟩
  | .hbm, ⟨8, _⟩ => ⟨S5, .f32⟩
  | .hbm, ⟨9, _⟩ => ⟨S5x1, .f32⟩
  | .hbm, ⟨10, _⟩ => ⟨S1, .f32⟩
  | .hbm, ⟨11, _⟩ => ⟨S_, .i32⟩
  | .hbm, ⟨12, _⟩ => ⟨S512x16, .i32⟩
  | .hbm, ⟨13, _⟩ => ⟨S512x16, .i1⟩
  | .hbm, ⟨14, _⟩ => ⟨S_, .i32⟩
  | .hbm, ⟨15, _⟩ => ⟨S512x16, .i32⟩
  | .hbm, ⟨16, _⟩ => ⟨S512x16, .i32⟩
  | .hbm, ⟨17, _⟩ => ⟨S512x16, .i32⟩
  | .hbm, ⟨18, _⟩ => ⟨S512x16x1, .i32⟩
  | .hbm, ⟨19, _⟩ => ⟨S1, .i32⟩
  | .hbm, ⟨20, _⟩ => ⟨S_, .i32⟩
  | .hbm, ⟨21, _⟩ => ⟨S512x16x1, .i32⟩
  | .hbm, ⟨22, _⟩ => ⟨S512x16x1, .i1⟩
  | .hbm, ⟨23, _⟩ => ⟨S1x1x1, .i32⟩
  | .hbm, ⟨24, _⟩ => ⟨S512x16x1, .i32⟩
  | .hbm, ⟨25, _⟩ => ⟨S512x16x1, .i1⟩
  | .hbm, ⟨26, _⟩ => ⟨S512x16x1, .i1⟩
  | .hbm, ⟨27, _⟩ => ⟨S_, .i1⟩
  | .hbm, ⟨28, _⟩ => ⟨S512x16, .i1⟩
  | .hbm, ⟨29, _⟩ => ⟨S512x16x128, .f32⟩
  | .hbm, ⟨30, _⟩ => ⟨S512x16x128, .i1⟩
  | .hbm, ⟨31, _⟩ => ⟨S_, .f32⟩
  | .hbm, ⟨32, _⟩ => ⟨S512x16x128, .f32⟩
  | .hbm, ⟨33, _⟩ => ⟨S512x16x128, .f32⟩
  | .hbm, ⟨34, _⟩ => ⟨S_, .i32⟩
  | .hbm, ⟨35, _⟩ => ⟨S512x512, .i32⟩
  | .hbm, ⟨36, _⟩ => ⟨S512x512, .i1⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S512x512, .i32⟩
  | .hbm, ⟨41, _⟩ => ⟨S512x512x1, .i32⟩
  | .hbm, ⟨42, _⟩ => ⟨S1, .i32⟩
  | .hbm, ⟨43, _⟩ => ⟨S_, .i32⟩
  | .hbm, ⟨44, _⟩ => ⟨S512x512x1, .i32⟩
  | .hbm, ⟨45, _⟩ => ⟨S512x512x1, .i1⟩
  | .hbm, ⟨46, _⟩ => ⟨S1x1x1, .i32⟩
  | .hbm, ⟨47, _⟩ => ⟨S512x512x1, .i32⟩
  | .hbm, ⟨48, _⟩ => ⟨S512x512x1, .i1⟩
  | .hbm, ⟨49, _⟩ => ⟨S512x512x1, .i1⟩
  | .hbm, ⟨50, _⟩ => ⟨S_, .i1⟩
  | .hbm, ⟨51, _⟩ => ⟨S512x512, .i1⟩
  | .hbm, ⟨52, _⟩ => ⟨S512x512x128, .f32⟩
  | .hbm, ⟨53, _⟩ => ⟨S512x512x128, .i1⟩
  | .hbm, ⟨54, _⟩ => ⟨S_, .f32⟩
  | .hbm, ⟨55, _⟩ => ⟨S512x512x128, .f32⟩
  | .hbm, ⟨56, _⟩ => ⟨S512x512x128, .f32⟩
  | .hbm, ⟨57, _⟩ => ⟨S_, .i32⟩
  | .hbm, ⟨58, _⟩ => ⟨S512x16, .i32⟩
  | .hbm, ⟨59, _⟩ => ⟨S512x16, .i1⟩
  | .hbm, ⟨60, _⟩ => ⟨S_, .i32⟩
  | .hbm, ⟨61, _⟩ => ⟨S512x16, .i32⟩
  | .hbm, ⟨62, _⟩ => ⟨S512x16, .i32⟩
  | .hbm, ⟨63, _⟩ => ⟨S512x16, .i32⟩
  | .hbm, ⟨64, _⟩ => ⟨S512x16x1, .i32⟩
  | .hbm, ⟨65, _⟩ => ⟨S1, .i32⟩
  | .hbm, ⟨66, _⟩ => ⟨S_, .i32⟩
  | .hbm, ⟨67, _⟩ => ⟨S512x16x1, .i32⟩
  | .hbm, ⟨68, _⟩ => ⟨S512x16x1, .i1⟩
  | .hbm, ⟨69, _⟩ => ⟨S1x1x1, .i32⟩
  | .hbm, ⟨70, _⟩ => ⟨S512x16x1, .i32⟩
  | .hbm, ⟨71, _⟩ => ⟨S512x16x1, .i1⟩
  | .hbm, ⟨72, _⟩ => ⟨S512x16x1, .i1⟩
  | .hbm, ⟨73, _⟩ => ⟨S_, .i1⟩
  | .hbm, ⟨74, _⟩ => ⟨S512x16, .i1⟩
  | .hbm, ⟨75, _⟩ => ⟨S512x16x128, .f32⟩
  | .hbm, ⟨76, _⟩ => ⟨S512x16x128, .i1⟩
  | .hbm, ⟨77, _⟩ => ⟨S_, .f32⟩
  | .hbm, ⟨78, _⟩ => ⟨S512x16x128, .f32⟩
  | .hbm, ⟨79, _⟩ => ⟨S512x16x128, .f32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S_, .i32⟩
  | .hbm, ⟨84, _⟩ => ⟨S512x512, .i32⟩
  | .hbm, ⟨85, _⟩ => ⟨S512x512, .i32⟩
  | .hbm, ⟨86, _⟩ => ⟨S512x512, .i32⟩
  | .hbm, ⟨87, _⟩ => ⟨S512x512x1, .i32⟩
  | .hbm, ⟨88, _⟩ => ⟨S1, .i32⟩
  | .hbm, ⟨89, _⟩ => ⟨S_, .i32⟩
  | .hbm, ⟨90, _⟩ => ⟨S512x512x1, .i32⟩
  | .hbm, ⟨91, _⟩ => ⟨S512x512x1, .i1⟩
  | .hbm, ⟨92, _⟩ => ⟨S1x1x1, .i32⟩
  | .hbm, ⟨93, _⟩ => ⟨S512x512x1, .i32⟩
  | .hbm, ⟨94, _⟩ => ⟨S512x512x1, .i1⟩
  | .hbm, ⟨95, _⟩ => ⟨S512x512x1, .i1⟩
  | .hbm, ⟨96, _⟩ => ⟨S_, .i1⟩
  | .hbm, ⟨97, _⟩ => ⟨S512x512, .i1⟩
  | .hbm, ⟨98, _⟩ => ⟨S512x512x128, .f32⟩
  | .hbm, ⟨99, _⟩ => ⟨S512x512x128, .i1⟩
  | .hbm, ⟨100, _⟩ => ⟨S_, .f32⟩
  | .hbm, ⟨101, _⟩ => ⟨S512x512x128, .f32⟩
  | .hbm, ⟨102, _⟩ => ⟨S512x512x128, .f32⟩
  | .hbm, ⟨103, _⟩ => ⟨S512x1, .f32⟩
  | .local _ .vmem, ⟨0, _⟩ => ⟨S16x16x128, .f32⟩
  | .local _ .vmem, ⟨1, _⟩ => ⟨S16x16x128, .f32⟩
  | .local _ .vmem, ⟨2, _⟩ => ⟨S16x512x128, .f32⟩
  | .local _ .vmem, ⟨3, _⟩ => ⟨S16x512x128, .f32⟩
  | .local _ .vmem, ⟨4, _⟩ => ⟨S16x16x128, .f32⟩
  | .local _ .vmem, ⟨5, _⟩ => ⟨S16x16x128, .f32⟩
  | .local _ .vmem, ⟨6, _⟩ => ⟨S16x512x128, .f32⟩
  | .local _ .vmem, ⟨7, _⟩ => ⟨S16x512x128, .f32⟩
  | .local _ .vmem, ⟨8, _⟩ => ⟨S21x10, .f32⟩
  | .local _ .vmem, ⟨9, _⟩ => ⟨S10, .f32⟩
  | .local _ .vmem, ⟨10, _⟩ => ⟨S10x5, .f32⟩
  | .local _ .vmem, ⟨11, _⟩ => ⟨S5, .f32⟩
  | .local _ .vmem, ⟨12, _⟩ => ⟨S5x1, .f32⟩
  | .local _ .vmem, ⟨13, _⟩ => ⟨S1, .f32⟩
  | .local _ .vmem, ⟨14, _⟩ => ⟨S16x1, .f32⟩
  | .local _ .vmem, ⟨15, _⟩ => ⟨S16x1, .f32⟩
  | _, _ => ⟨S512x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v2 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v3 : Ref sig .tc := ⟨.hbm, 102, rfl⟩
abbrev main_v4 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S21x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  bcast_S512x16_S512x16x128_0_1 : S512x16.BroadcastsInDim S512x16x128 (![0, 1] : Fin 2 → Fin S512x16x128.rank)
  bcast_S_S512x16x128 : S_.BroadcastsInDim S512x16x128 (![] : Fin 0 → Fin S512x16x128.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S1x1x1_S512x512x1_0_1_2 : S1x1x1.BroadcastsInDim S512x512x1 (![0, 1, 2] : Fin 3 → Fin S512x512x1.rank)
  reducesTo_S512x512x1_S512x512_d2 : S512x512x1.ReducesTo [2] S512x512
  bcast_S512x512_S512x512x128_0_1 : S512x512.BroadcastsInDim S512x512x128 (![0, 1] : Fin 2 → Fin S512x512x128.rank)
  bcast_S_S512x512x128 : S_.BroadcastsInDim S512x512x128 (![] : Fin 0 → Fin S512x512x128.rank)
  inb_S16x16x128_S16x16x128_0_0_0 : ∀ a, (![0, 0, 0] : Fin 3 → Nat) a + S16x16x128.size a ≤ S16x16x128.size a
  h_S16x16x128 : 0 < S16x16x128.numel
  shapeCasts_S16x16x128_S16x16x128 : S16x16x128.ShapeCasts S16x16x128
  reduces_S16x16x128_S16x16 : S16x16x128.Reduces [2] S16x16
  shapeCasts_S16x16_S16x16x1 : S16x16.ShapeCasts S16x16x1
  broadcasts_S16x16x1_S16x16x128 : S16x16x1.Broadcasts S16x16x128
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  reduces_S16x512x128_S16x512 : S16x512x128.Reduces [2] S16x512
  shapeCasts_S16x512_S16x512x1 : S16x512.ShapeCasts S16x512x1
  broadcasts_S16x512x1_S16x512x128 : S16x512x1.Broadcasts S16x512x128
  reduces_S16x16x512_S16x16 : S16x16x512.Reduces [2] S16x16
  reduces_S16x16_S16 : S16x16.Reduces [1] S16
  shapeCasts_S16_S16x1 : S16.ShapeCasts S16x1
  concatenates_S16x1_S16x1_S16x1_S16x1_S16x1_S16x1_S16x1_S16x1_S16x1_S16x1_S16x1_S16x1_S16x1_S16x1_S16x1_S16x1_S16x1_S16x1_S16x1_S16x1_S16x1_S16x21_d1 : Shape.Concatenates [S16x1, S16x1, S16x1, S16x1, S16x1, S16x1, S16x1, S16x1, S16x1, S16x1, S16x1, S16x1, S16x1, S16x1, S16x1, S16x1, S16x1, S16x1, S16x1, S16x1, S16x1] S16x21 1
  inb_S21x10_S21x10_0_0 : ∀ a, (![0, 0] : Fin 2 → Nat) a + S21x10.size a ≤ S21x10.size a
  h_S21x10 : 0 < S21x10.numel
  inb_S10_S10_0 : ∀ a, (![0] : Fin 1 → Nat) a + S10.size a ≤ S10.size a
  h_S10 : 0 < S10.numel
  shapeCasts_S10_S1x10 : S10.ShapeCasts S1x10
  broadcasts_S1x10_S16x10 : S1x10.Broadcasts S16x10
  inb_S10x5_S10x5_0_0 : ∀ a, (![0, 0] : Fin 2 → Nat) a + S10x5.size a ≤ S10x5.size a
  h_S10x5 : 0 < S10x5.numel
  inb_S5_S5_0 : ∀ a, (![0] : Fin 1 → Nat) a + S5.size a ≤ S5.size a
  h_S5 : 0 < S5.numel
  shapeCasts_S5_S1x5 : S5.ShapeCasts S1x5
  broadcasts_S1x5_S16x5 : S1x5.Broadcasts S16x5
  inb_S5x1_S5x1_0_0 : ∀ a, (![0, 0] : Fin 2 → Nat) a + S5x1.size a ≤ S5x1.size a
  h_S5x1 : 0 < S5x1.numel
  inb_S1_S1_0 : ∀ a, (![0] : Fin 1 → Nat) a + S1.size a ≤ S1.size a
  h_S1 : 0 < S1.numel
  shapeCasts_S1_S1x1 : S1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  gather_S100000x128_S512x16x1_S512x16x128_2_0_n_n_0_2_1128_wf : GatherDims.WF S100000x128 S512x16x1 S512x16x128 [2] [0] [] [0] [] 2 ![1, 128]
  gather_S100000x128_S512x512x1_S512x512x128_2_0_n_n_0_2_1128_wf : GatherDims.WF S100000x128 S512x512x1 S512x512x128 [2] [0] [] [0] [] 2 ![1, 128]
  dot_S16x16x128_S16x512x128_S16x16x512_2_2_1_1_0_0_wf : DotDims.WF S16x16x128 S16x512x128 S16x16x512 [2] [2] [1] [1] [0] [0]
  dot_S16x21_S21x10_S16x10_1_0_0_1_n_n_wf : DotDims.WF S16x21 S21x10 S16x10 [1] [0] [0] [1] [] []
  dot_S16x10_S10x5_S16x5_1_0_0_1_n_n_wf : DotDims.WF S16x10 S10x5 S16x5 [1] [0] [0] [1] [] []
  dot_S16x5_S5x1_S16x1_1_0_0_1_n_n_wf : DotDims.WF S16x5 S5x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x128.size a ≤ S512x16x128.size a
  hwx0_0 : ∀ i : grid0.Coords, EltTy.bits .f32 = 32 ∨ (Rect.block (s := S512x16x128) S16x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x128.size a ≤ S512x512x128.size a
  hwx0_1 : ∀ i : grid0.Coords, EltTy.bits .f32 = 32 ∨ (Rect.block (s := S512x512x128) S16x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16x128.size a ≤ S512x16x128.size a
  hwx0_2 : ∀ i : grid0.Coords, EltTy.bits .f32 = 32 ∨ (Rect.block (s := S512x16x128) S16x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x128.size a ≤ S512x512x128.size a
  hwx0_3 : ∀ i : grid0.Coords, EltTy.bits .f32 = 32 ∨ (Rect.block (s := S512x512x128) S16x512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S21x10.size a ≤ S21x10.size a
  hwx0_4 : ∀ i : grid0.Coords, EltTy.bits .f32 = 32 ∨ (Rect.block (s := S21x10) S21x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10.size a ≤ S10.size a
  hwx0_5 : ∀ i : grid0.Coords, EltTy.bits .f32 = 32 ∨ (Rect.block (s := S10) S10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x5.size a ≤ S10x5.size a
  hwx0_6 : ∀ i : grid0.Coords, EltTy.bits .f32 = 32 ∨ (Rect.block (s := S10x5) S10x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5.size a ≤ S5.size a
  hwx0_7 : ∀ i : grid0.Coords, EltTy.bits .f32 = 32 ∨ (Rect.block (s := S5) S5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x1.size a ≤ S5x1.size a
  hwx0_8 : ∀ i : grid0.Coords, EltTy.bits .f32 = 32 ∨ (Rect.block (s := S5x1) S5x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S512x1.size a
  hwx0_10 : ∀ i : grid0.Coords, EltTy.bits .f32 = 32 ∨ (Rect.block (s := S512x1) S16x1.size (cc0_transform_10 i) (hinb0_10 i)).WholeWords (EltTy.packing .f32)

variable [Facts₀]

def gather_S100000x128_S512x16x1_S512x16x128_2_0_n_n_0_2_1128 : GatherDims S100000x128 S512x16x1 S512x16x128 where
  offsetDims := [2]
  collapsedSliceDims := [0]
  operandBatchingDims := []
  startIndicesBatchingDims := []
  startIndexMap := [0]
  indexVectorDim := 2
  sliceSizes := ![1, 128]
  wf := gather_S100000x128_S512x16x1_S512x16x128_2_0_n_n_0_2_1128_wf
def gather_S100000x128_S512x512x1_S512x512x128_2_0_n_n_0_2_1128 : GatherDims S100000x128 S512x512x1 S512x512x128 where
  offsetDims := [2]
  collapsedSliceDims := [0]
  operandBatchingDims := []
  startIndicesBatchingDims := []
  startIndexMap := [0]
  indexVectorDim := 2
  sliceSizes := ![1, 128]
  wf := gather_S100000x128_S512x512x1_S512x512x128_2_0_n_n_0_2_1128_wf
def dot_S16x16x128_S16x512x128_S16x16x512_2_2_1_1_0_0 : DotDims S16x16x128 S16x512x128 S16x16x512 where
  lhsContracting := [2]
  rhsContracting := [2]
  lhsNonContracting := [1]
  rhsNonContracting := [1]
  lhsBatch := [0]
  rhsBatch := [0]
  wf := dot_S16x16x128_S16x512x128_S16x16x512_2_2_1_1_0_0_wf
def dot_S16x21_S21x10_S16x10_1_0_0_1_n_n : DotDims S16x21 S21x10 S16x10 where
  lhsContracting := [1]
  rhsContracting := [0]
  lhsNonContracting := [0]
  rhsNonContracting := [1]
  lhsBatch := []
  rhsBatch := []
  wf := dot_S16x21_S21x10_S16x10_1_0_0_1_n_n_wf
def dot_S16x10_S10x5_S16x5_1_0_0_1_n_n : DotDims S16x10 S10x5 S16x5 where
  lhsContracting := [1]
  rhsContracting := [0]
  lhsNonContracting := [0]
  rhsNonContracting := [1]
  lhsBatch := []
  rhsBatch := []
  wf := dot_S16x10_S10x5_S16x5_1_0_0_1_n_n_wf
def dot_S16x5_S5x1_S16x1_1_0_0_1_n_n : DotDims S16x5 S5x1 S16x1 where
  lhsContracting := [1]
  rhsContracting := [0]
  lhsNonContracting := [0]
  rhsNonContracting := [1]
  lhsBatch := []
  rhsBatch := []
  wf := dot_S16x5_S5x1_S16x1_1_0_0_1_n_n_wf

abbrev win0_0 : Pipeline.Window sig grid0 :=
  Pipeline.Window.ofSpec (Memref.whole main_v0) S16x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S21x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S10x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S5x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S16x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x16 : Shape := ⟨2, ![512, 16]⟩
abbrev S512x512 : Shape := ⟨2, ![512, 512]⟩
abbrev S100000x128 : Shape := ⟨2, ![100000, 128]⟩
abbrev S21x10 : Shape := ⟨2, ![21, 10]⟩
abbrev S10 : Shape := ⟨1, ![10]⟩
abbrev S10x5 : Shape := ⟨2, ![10, 5]⟩
abbrev S5 : Shape := ⟨1, ![5]⟩
abbrev S5x1 : Shape := ⟨2, ![5, 1]⟩
abbrev S1 : Shape := ⟨1, ![1]⟩
abbrev S_ : Shape := ⟨0, ![]⟩
abbrev S512x16x1 : Shape := ⟨3, ![512, 16, 1]⟩
abbrev S512x16x128 : Shape := ⟨3, ![512, 16, 128]⟩
abbrev S512x512x1 : Shape := ⟨3, ![512, 512, 1]⟩
abbrev S512x512x128 : Shape := ⟨3, ![512, 512, 128]⟩
abbrev S512x16x512 : Shape := ⟨3, ![512, 16, 512]⟩
abbrev S512 : Shape := ⟨1, ![512]⟩
abbrev S512x1 : Shape := ⟨2, ![512, 1]⟩
abbrev S512x5 : Shape := ⟨2, ![512, 5]⟩
abbrev S512x21 : Shape := ⟨2, ![512, 21]⟩
abbrev S512x10 : Shape := ⟨2, ![512, 10]⟩
abbrev S1x10 : Shape := ⟨2, ![1, 10]⟩
abbrev S1x5 : Shape := ⟨2, ![1, 5]⟩
abbrev S1x1 : Shape := ⟨2, ![1, 1]⟩

abbrev nBuf : Space → Nat
  | .hbm => 854
  | .vmem => 0
  | .smem => 0
  | _ => 0

abbrev hbmTy0_0 (i : Nat) : BufTy := match i % 128 with
  | 0 => ⟨S512x16, .i32⟩
  | 1 => ⟨S512x512, .i32⟩
  | 2 => ⟨S512x16, .i32⟩
  | 3 => ⟨S512x512, .i32⟩
  | 4 => ⟨S100000x128, .f32⟩
  | 5 => ⟨S21x10, .f32⟩
  | 6 => ⟨S10, .f32⟩
  | 7 => ⟨S10x5, .f32⟩
  | 8 => ⟨S5, .f32⟩
  | 9 => ⟨S5x1, .f32⟩
  | 10 => ⟨S1, .f32⟩
  | 11 => ⟨S_, .i32⟩
  | 12 => ⟨S512x16, .i32⟩
  | 13 => ⟨S512x16, .i1⟩
  | 14 => ⟨S_, .i32⟩
  | 15 => ⟨S512x16, .i32⟩
  | 16 => ⟨S512x16, .i32⟩
  | 17 => ⟨S512x16, .i32⟩
  | 18 => ⟨S512x16x1, .i32⟩
  | 19 => ⟨S512x16x128, .f32⟩
  | 20 => ⟨S512x16x128, .f32⟩
  | 21 => ⟨S_, .f32⟩
  | 22 => ⟨S512x16, .f32⟩
  | 23 => ⟨S512x16x1, .f32⟩
  | 24 => ⟨S512x16x1, .f32⟩
  | 25 => ⟨S_, .f32⟩
  | 26 => ⟨S512x16x1, .f32⟩
  | 27 => ⟨S512x16x1, .f32⟩
  | 28 => ⟨S512x16x128, .f32⟩
  | 29 => ⟨S512x16x128, .f32⟩
  | 30 => ⟨S_, .i32⟩
  | 31 => ⟨S512x512, .i32⟩
  | 32 => ⟨S512x512, .i1⟩
  | 33 => ⟨S_, .i32⟩
  | 34 => ⟨S512x512, .i32⟩
  | 35 => ⟨S512x512, .i32⟩
  | 36 => ⟨S512x512, .i32⟩
  | 37 => ⟨S512x512x1, .i32⟩
  | 38 => ⟨S512x512x128, .f32⟩
  | 39 => ⟨S512x512x128, .f32⟩
  | 40 => ⟨S_, .f32⟩
  | 41 => ⟨S512x512, .f32⟩
  | 42 => ⟨S512x512x1, .f32⟩
  | 43 => ⟨S512x512x1, .f32⟩
  | 44 => ⟨S_, .f32⟩
  | 45 => ⟨S512x512x1, .f32⟩
  | 46 => ⟨S512x512x1, .f32⟩
  | 47 => ⟨S512x512x128, .f32⟩
  | 48 => ⟨S512x512x128, .f32⟩
  | 49 => ⟨S512x16x512, .f32⟩
  | 50 => ⟨S_, .f32⟩
  | 51 => ⟨S512x16x512, .f32⟩
  | 52 => ⟨S512x16x512, .f32⟩
  | 53 => ⟨S512x16x512, .f32⟩
  | 54 => ⟨S_, .f32⟩
  | 55 => ⟨S512x16x512, .f32⟩
  | 56 => ⟨S512x16x512, .f32⟩
  | 57 => ⟨S_, .f32⟩
  | 58 => ⟨S512x16x512, .f32⟩
  | 59 => ⟨S512x16x512, .f32⟩
  | 60 => ⟨S512x16x512, .f32⟩
  | 61 => ⟨S_, .f32⟩
  | 62 => ⟨S512x16, .f32⟩
  | 63 => ⟨S512x16, .f32⟩
  | 64 => ⟨S_, .f32⟩
  | 65 => ⟨S512, .f32⟩
  | 66 => ⟨S_, .f32⟩
  | 67 => ⟨S512x16x512, .f32⟩
  | 68 => ⟨S512x16x512, .f32⟩
  | 69 => ⟨S512x16x512, .f32⟩
  | 70 => ⟨S_, .f32⟩
  | 71 => ⟨S512x16x512, .f32⟩
  | 72 => ⟨S512x16x512, .f32⟩
  | 73 => ⟨S_, .f32⟩
  | 74 => ⟨S512x16x512, .f32⟩
  | 75 => ⟨S512x16x512, .f32⟩
  | 76 => ⟨S512x16x512, .f32⟩
  | 77 => ⟨S_, .f32⟩
  | 78 => ⟨S512x16, .f32⟩
  | 79 => ⟨S512x16, .f32⟩
  | 80 => ⟨S_, .f32⟩
  | 81 => ⟨S512, .f32⟩
  | 82 => ⟨S_, .f32⟩
  | 83 => ⟨S512x16x512, .f32⟩
  | 84 => ⟨S512x16x512, .f32⟩
  | 85 => ⟨S512x16x512, .f32⟩
  | 86 => ⟨S_, .f32⟩
  | 87 => ⟨S512x16x512, .f32⟩
  | 88 => ⟨S512x16x512, .f32⟩
  | 89 => ⟨S_, .f32⟩
  | 90 => ⟨S512x16x512, .f32⟩
  | 91 => ⟨S512x16x512, .f32⟩
  | 92 => ⟨S512x16x512, .f32⟩
  | 93 => ⟨S_, .f32⟩
  | 94 => ⟨S512x16, .f32⟩
  | 95 => ⟨S512x16, .f32⟩
  | 96 => ⟨S_, .f32⟩
  | 97 => ⟨S512, .f32⟩
  | 98 => ⟨S_, .f32⟩
  | 99 => ⟨S512x16x512, .f32⟩
  | 100 => ⟨S512x16x512, .f32⟩
  | 101 => ⟨S512x16x512, .f32⟩
  | 102 => ⟨S_, .f32⟩
  | 103 => ⟨S512x16x512, .f32⟩
  | 104 => ⟨S512x16x512, .f32⟩
  | 105 => ⟨S_, .f32⟩
  | 106 => ⟨S512x16x512, .f32⟩
  | 107 => ⟨S512x16x512, .f32⟩
  | 108 => ⟨S512x16x512, .f32⟩
  | 109 => ⟨S_, .f32⟩
  | 110 => ⟨S512x16, .f32⟩
  | 111 => ⟨S512x16, .f32⟩
  | 112 => ⟨S_, .f32⟩
  | 113 => ⟨S512, .f32⟩
  | 114 => ⟨S_, .f32⟩
  | 115 => ⟨S512x16x512, .f32⟩
  | 116 => ⟨S512x16x512, .f32⟩
  | 117 => ⟨S512x16x512, .f32⟩
  | 118 => ⟨S_, .f32⟩
  | 119 => ⟨S512x16x512, .f32⟩
  | 120 => ⟨S512x16x512, .f32⟩
  | 121 => ⟨S_, .f32⟩
  | 122 => ⟨S512x16x512, .f32⟩
  | 123 => ⟨S512x16x512, .f32⟩
  | 124 => ⟨S512x16x512, .f32⟩
  | 125 => ⟨S_, .f32⟩
  | 126 => ⟨S512x16, .f32⟩
  | 127 => ⟨S512x16, .f32⟩
  | _ => ⟨S512x16, .i32⟩

abbrev hbmTy0_1 (i : Nat) : BufTy := match i % 128 with
  | 0 => ⟨S_, .f32⟩
  | 1 => ⟨S512, .f32⟩
  | 2 => ⟨S_, .f32⟩
  | 3 => ⟨S512x16x512, .f32⟩
  | 4 => ⟨S512x16x512, .f32⟩
  | 5 => ⟨S512x16x512, .f32⟩
  | 6 => ⟨S_, .f32⟩
  | 7 => ⟨S512x16x512, .f32⟩
  | 8 => ⟨S512x16x512, .f32⟩
  | 9 => ⟨S_, .f32⟩
  | 10 => ⟨S512x16x512, .f32⟩
  | 11 => ⟨S512x16x512, .f32⟩
  | 12 => ⟨S512x16x512, .f32⟩
  | 13 => ⟨S_, .f32⟩
  | 14 => ⟨S512x16, .f32⟩
  | 15 => ⟨S512x16, .f32⟩
  | 16 => ⟨S_, .f32⟩
  | 17 => ⟨S512, .f32⟩
  | 18 => ⟨S_, .f32⟩
  | 19 => ⟨S512x16x512, .f32⟩
  | 20 => ⟨S512x16x512, .f32⟩
  | 21 => ⟨S512x16x512, .f32⟩
  | 22 => ⟨S_, .f32⟩
  | 23 => ⟨S512x16x512, .f32⟩
  | 24 => ⟨S512x16x512, .f32⟩
  | 25 => ⟨S_, .f32⟩
  | 26 => ⟨S512x16x512, .f32⟩
  | 27 => ⟨S512x16x512, .f32⟩
  | 28 => ⟨S512x16x512, .f32⟩
  | 29 => ⟨S_, .f32⟩
  | 30 => ⟨S512x16, .f32⟩
  | 31 => ⟨S512x16, .f32⟩
  | 32 => ⟨S_, .f32⟩
  | 33 => ⟨S512, .f32⟩
  | 34 => ⟨S_, .f32⟩
  | 35 => ⟨S512x16x512, .f32⟩
  | 36 => ⟨S512x16x512, .f32⟩
  | 37 => ⟨S512x16x512, .f32⟩
  | 38 => ⟨S_, .f32⟩
  | 39 => ⟨S512x16x512, .f32⟩
  | 40 => ⟨S512x16x512, .f32⟩
  | 41 => ⟨S_, .f32⟩
  | 42 => ⟨S512x16x512, .f32⟩
  | 43 => ⟨S512x16x512, .f32⟩
  | 44 => ⟨S512x16x512, .f32⟩
  | 45 => ⟨S_, .f32⟩
  | 46 => ⟨S512x16, .f32⟩
  | 47 => ⟨S512x16, .f32⟩
  | 48 => ⟨S_, .f32⟩
  | 49 => ⟨S512, .f32⟩
  | 50 => ⟨S_, .f32⟩
  | 51 => ⟨S512x16x512, .f32⟩
  | 52 => ⟨S512x16x512, .f32⟩
  | 53 => ⟨S512x16x512, .f32⟩
  | 54 => ⟨S_, .f32⟩
  | 55 => ⟨S512x16x512, .f32⟩
  | 56 => ⟨S512x16x512, .f32⟩
  | 57 => ⟨S_, .f32⟩
  | 58 => ⟨S512x16x512, .f32⟩
  | 59 => ⟨S512x16x512, .f32⟩
  | 60 => ⟨S512x16x512, .f32⟩
  | 61 => ⟨S_, .f32⟩
  | 62 => ⟨S512x16, .f32⟩
  | 63 => ⟨S512x16, .f32⟩
  | 64 => ⟨S_, .f32⟩
  | 65 => ⟨S512, .f32⟩
  | 66 => ⟨S_, .f32⟩
  | 67 => ⟨S512x16x512, .f32⟩
  | 68 => ⟨S512x16x512, .f32⟩
  | 69 => ⟨S512x16x512, .f32⟩
  | 70 => ⟨S_, .f32⟩
  | 71 => ⟨S512x16x512, .f32⟩
  | 72 => ⟨S512x16x512, .f32⟩
  | 73 => ⟨S_, .f32⟩
  | 74 => ⟨S512x16x512, .f32⟩
  | 75 => ⟨S512x16x512, .f32⟩
  | 76 => ⟨S512x16x512, .f32⟩
  | 77 => ⟨S_, .f32⟩
  | 78 => ⟨S512x16, .f32⟩
  | 79 => ⟨S512x16, .f32⟩
  | 80 => ⟨S_, .f32⟩
  | 81 => ⟨S512, .f32⟩
  | 82 => ⟨S_, .f32⟩
  | 83 => ⟨S512x16x512, .f32⟩
  | 84 => ⟨S512x16x512, .f32⟩
  | 85 => ⟨S512x16x512, .f32⟩
  | 86 => ⟨S_, .f32⟩
  | 87 => ⟨S512x16x512, .f32⟩
  | 88 => ⟨S512x16x512, .f32⟩
  | 89 => ⟨S_, .f32⟩
  | 90 => ⟨S512x16x512, .f32⟩
  | 91 => ⟨S512x16x512, .f32⟩
  | 92 => ⟨S512x16x512, .f32⟩
  | 93 => ⟨S_, .f32⟩
  | 94 => ⟨S512x16, .f32⟩
  | 95 => ⟨S512x16, .f32⟩
  | 96 => ⟨S_, .f32⟩
  | 97 => ⟨S512, .f32⟩
  | 98 => ⟨S_, .f32⟩
  | 99 => ⟨S512x16x512, .f32⟩
  | 100 => ⟨S512x16x512, .f32⟩
  | 101 => ⟨S512x16x512, .f32⟩
  | 102 => ⟨S_, .f32⟩
  | 103 => ⟨S512x16x512, .f32⟩
  | 104 => ⟨S512x16x512, .f32⟩
  | 105 => ⟨S_, .f32⟩
  | 106 => ⟨S512x16x512, .f32⟩
  | 107 => ⟨S512x16x512, .f32⟩
  | 108 => ⟨S512x16x512, .f32⟩
  | 109 => ⟨S_, .f32⟩
  | 110 => ⟨S512x16, .f32⟩
  | 111 => ⟨S512x16, .f32⟩
  | 112 => ⟨S_, .f32⟩
  | 113 => ⟨S512, .f32⟩
  | 114 => ⟨S_, .f32⟩
  | 115 => ⟨S512x16x512, .f32⟩
  | 116 => ⟨S512x16x512, .f32⟩
  | 117 => ⟨S512x16x512, .f32⟩
  | 118 => ⟨S_, .f32⟩
  | 119 => ⟨S512x16x512, .f32⟩
  | 120 => ⟨S512x16x512, .f32⟩
  | 121 => ⟨S_, .f32⟩
  | 122 => ⟨S512x16x512, .f32⟩
  | 123 => ⟨S512x16x512, .f32⟩
  | 124 => ⟨S512x16x512, .f32⟩
  | 125 => ⟨S_, .f32⟩
  | 126 => ⟨S512x16, .f32⟩
  | 127 => ⟨S512x16, .f32⟩
  | _ => ⟨S512x16, .i32⟩

abbrev hbmTy0_2 (i : Nat) : BufTy := match i % 128 with
  | 0 => ⟨S_, .f32⟩
  | 1 => ⟨S512, .f32⟩
  | 2 => ⟨S_, .f32⟩
  | 3 => ⟨S512x16x512, .f32⟩
  | 4 => ⟨S512x16x512, .f32⟩
  | 5 => ⟨S512x16x512, .f32⟩
  | 6 => ⟨S_, .f32⟩
  | 7 => ⟨S512x16x512, .f32⟩
  | 8 => ⟨S512x16x512, .f32⟩
  | 9 => ⟨S_, .f32⟩
  | 10 => ⟨S512x16x512, .f32⟩
  | 11 => ⟨S512x16x512, .f32⟩
  | 12 => ⟨S512x16x512, .f32⟩
  | 13 => ⟨S_, .f32⟩
  | 14 => ⟨S512x16, .f32⟩
  | 15 => ⟨S512x16, .f32⟩
  | 16 => ⟨S_, .f32⟩
  | 17 => ⟨S512, .f32⟩
  | 18 => ⟨S_, .f32⟩
  | 19 => ⟨S512x16x512, .f32⟩
  | 20 => ⟨S512x16x512, .f32⟩
  | 21 => ⟨S512x16x512, .f32⟩
  | 22 => ⟨S_, .f32⟩
  | 23 => ⟨S512x16x512, .f32⟩
  | 24 => ⟨S512x16x512, .f32⟩
  | 25 => ⟨S_, .f32⟩
  | 26 => ⟨S512x16x512, .f32⟩
  | 27 => ⟨S512x16x512, .f32⟩
  | 28 => ⟨S512x16x512, .f32⟩
  | 29 => ⟨S_, .f32⟩
  | 30 => ⟨S512x16, .f32⟩
  | 31 => ⟨S512x16, .f32⟩
  | 32 => ⟨S_, .f32⟩
  | 33 => ⟨S512, .f32⟩
  | 34 => ⟨S_, .f32⟩
  | 35 => ⟨S512x16x512, .f32⟩
  | 36 => ⟨S512x16x512, .f32⟩
  | 37 => ⟨S512x16x512, .f32⟩
  | 38 => ⟨S_, .f32⟩
  | 39 => ⟨S512x16x512, .f32⟩
  | 40 => ⟨S512x16x512, .f32⟩
  | 41 => ⟨S_, .f32⟩
  | 42 => ⟨S512x16x512, .f32⟩
  | 43 => ⟨S512x16x512, .f32⟩
  | 44 => ⟨S512x16x512, .f32⟩
  | 45 => ⟨S_, .f32⟩
  | 46 => ⟨S512x16, .f32⟩
  | 47 => ⟨S512x16, .f32⟩
  | 48 => ⟨S_, .f32⟩
  | 49 => ⟨S512, .f32⟩
  | 50 => ⟨S_, .f32⟩
  | 51 => ⟨S512x16x512, .f32⟩
  | 52 => ⟨S512x16x512, .f32⟩
  | 53 => ⟨S512x16x512, .f32⟩
  | 54 => ⟨S_, .f32⟩
  | 55 => ⟨S512x16x512, .f32⟩
  | 56 => ⟨S512x16x512, .f32⟩
  | 57 => ⟨S_, .f32⟩
  | 58 => ⟨S512x16x512, .f32⟩
  | 59 => ⟨S512x16x512, .f32⟩
  | 60 => ⟨S512x16x512, .f32⟩
  | 61 => ⟨S_, .f32⟩
  | 62 => ⟨S512x16, .f32⟩
  | 63 => ⟨S512x16, .f32⟩
  | 64 => ⟨S_, .f32⟩
  | 65 => ⟨S512, .f32⟩
  | 66 => ⟨S_, .f32⟩
  | 67 => ⟨S512x16x512, .f32⟩
  | 68 => ⟨S512x16x512, .f32⟩
  | 69 => ⟨S512x16x512, .f32⟩
  | 70 => ⟨S_, .f32⟩
  | 71 => ⟨S512x16x512, .f32⟩
  | 72 => ⟨S512x16x512, .f32⟩
  | 73 => ⟨S_, .f32⟩
  | 74 => ⟨S512x16x512, .f32⟩
  | 75 => ⟨S512x16x512, .f32⟩
  | 76 => ⟨S512x16x512, .f32⟩
  | 77 => ⟨S_, .f32⟩
  | 78 => ⟨S512x16, .f32⟩
  | 79 => ⟨S512x16, .f32⟩
  | 80 => ⟨S_, .f32⟩
  | 81 => ⟨S512, .f32⟩
  | 82 => ⟨S_, .f32⟩
  | 83 => ⟨S512x16x512, .f32⟩
  | 84 => ⟨S512x16x512, .f32⟩
  | 85 => ⟨S512x16x512, .f32⟩
  | 86 => ⟨S_, .f32⟩
  | 87 => ⟨S512x16x512, .f32⟩
  | 88 => ⟨S512x16x512, .f32⟩
  | 89 => ⟨S_, .f32⟩
  | 90 => ⟨S512x16x512, .f32⟩
  | 91 => ⟨S512x16x512, .f32⟩
  | 92 => ⟨S512x16x512, .f32⟩
  | 93 => ⟨S_, .f32⟩
  | 94 => ⟨S512x16, .f32⟩
  | 95 => ⟨S512x16, .f32⟩
  | 96 => ⟨S_, .f32⟩
  | 97 => ⟨S512, .f32⟩
  | 98 => ⟨S_, .f32⟩
  | 99 => ⟨S512x16x512, .f32⟩
  | 100 => ⟨S512x16x512, .f32⟩
  | 101 => ⟨S512x16x512, .f32⟩
  | 102 => ⟨S_, .f32⟩
  | 103 => ⟨S512x16x512, .f32⟩
  | 104 => ⟨S512x16x512, .f32⟩
  | 105 => ⟨S_, .f32⟩
  | 106 => ⟨S512x16x512, .f32⟩
  | 107 => ⟨S512x16x512, .f32⟩
  | 108 => ⟨S512x16x512, .f32⟩
  | 109 => ⟨S_, .f32⟩
  | 110 => ⟨S512x16, .f32⟩
  | 111 => ⟨S512x16, .f32⟩
  | 112 => ⟨S_, .f32⟩
  | 113 => ⟨S512, .f32⟩
  | 114 => ⟨S_, .f32⟩
  | 115 => ⟨S512x16x512, .f32⟩
  | 116 => ⟨S512x16x512, .f32⟩
  | 117 => ⟨S512x16x512, .f32⟩
  | 118 => ⟨S_, .f32⟩
  | 119 => ⟨S512x16x512, .f32⟩
  | 120 => ⟨S512x16x512, .f32⟩
  | 121 => ⟨S_, .f32⟩
  | 122 => ⟨S512x16x512, .f32⟩
  | 123 => ⟨S512x16x512, .f32⟩
  | 124 => ⟨S512x16x512, .f32⟩
  | 125 => ⟨S_, .f32⟩
  | 126 => ⟨S512x16, .f32⟩
  | 127 => ⟨S512x16, .f32⟩
  | _ => ⟨S512x16, .i32⟩

abbrev hbmTy0_3 (i : Nat) : BufTy := match i % 128 with
  | 0 => ⟨S_, .f32⟩
  | 1 => ⟨S512, .f32⟩
  | 2 => ⟨S512x1, .f32⟩
  | 3 => ⟨S512x1, .f32⟩
  | 4 => ⟨S512x1, .f32⟩
  | 5 => ⟨S512x1, .f32⟩
  | 6 => ⟨S512x1, .f32⟩
  | 7 => ⟨S512x1, .f32⟩
  | 8 => ⟨S512x1, .f32⟩
  | 9 => ⟨S512x1, .f32⟩
  | 10 => ⟨S512x1, .f32⟩
  | 11 => ⟨S512x1, .f32⟩
  | 12 => ⟨S512x1, .f32⟩
  | 13 => ⟨S512x1, .f32⟩
  | 14 => ⟨S512x1, .f32⟩
  | 15 => ⟨S512x1, .f32⟩
  | 16 => ⟨S512x1, .f32⟩
  | 17 => ⟨S512x1, .f32⟩
  | 18 => ⟨S512x1, .f32⟩
  | 19 => ⟨S512x1, .f32⟩
  | 20 => ⟨S512x1, .f32⟩
  | 21 => ⟨S512x1, .f32⟩
  | 22 => ⟨S512x1, .f32⟩
  | 23 => ⟨S512x16, .f32⟩
  | 24 => ⟨S512x5, .f32⟩
  | 25 => ⟨S512x21, .f32⟩
  | 26 => ⟨S512x10, .f32⟩
  | 27 => ⟨S1x10, .f32⟩
  | 28 => ⟨S512x10, .f32⟩
  | 29 => ⟨S512x10, .f32⟩
  | 30 => ⟨S_, .f32⟩
  | 31 => ⟨S512x10, .f32⟩
  | 32 => ⟨S512x10, .f32⟩
  | 33 => ⟨S512x5, .f32⟩
  | 34 => ⟨S1x5, .f32⟩
  | 35 => ⟨S512x5, .f32⟩
  | 36 => ⟨S512x5, .f32⟩
  | 37 => ⟨S_, .f32⟩
  | 38 => ⟨S512x5, .f32⟩
  | 39 => ⟨S512x5, .f32⟩
  | 40 => ⟨S512x1, .f32⟩
  | 41 => ⟨S1x1, .f32⟩
  | 42 => ⟨S512x1, .f32⟩
  | 43 => ⟨S512x1, .f32⟩
  | 44 => ⟨S_, .i32⟩
  | 45 => ⟨S512x16, .i32⟩
  | 46 => ⟨S512x16, .i1⟩
  | 47 => ⟨S_, .i32⟩
  | 48 => ⟨S512x16, .i32⟩
  | 49 => ⟨S512x16, .i32⟩
  | 50 => ⟨S512x16, .i32⟩
  | 51 => ⟨S512x16x1, .i32⟩
  | 52 => ⟨S512x16x128, .f32⟩
  | 53 => ⟨S512x16x128, .f32⟩
  | 54 => ⟨S_, .f32⟩
  | 55 => ⟨S512x16, .f32⟩
  | 56 => ⟨S512x16x1, .f32⟩
  | 57 => ⟨S512x16x1, .f32⟩
  | 58 => ⟨S_, .f32⟩
  | 59 => ⟨S512x16x1, .f32⟩
  | 60 => ⟨S512x16x1, .f32⟩
  | 61 => ⟨S512x16x128, .f32⟩
  | 62 => ⟨S512x16x128, .f32⟩
  | 63 => ⟨S_, .i32⟩
  | 64 => ⟨S512x512, .i32⟩
  | 65 => ⟨S512x512, .i1⟩
  | 66 => ⟨S_, .i32⟩
  | 67 => ⟨S512x512, .i32⟩
  | 68 => ⟨S512x512, .i32⟩
  | 69 => ⟨S512x512, .i32⟩
  | 70 => ⟨S512x512x1, .i32⟩
  | 71 => ⟨S512x512x128, .f32⟩
  | 72 => ⟨S512x512x128, .f32⟩
  | 73 => ⟨S_, .f32⟩
  | 74 => ⟨S512x512, .f32⟩
  | 75 => ⟨S512x512x1, .f32⟩
  | 76 => ⟨S512x512x1, .f32⟩
  | 77 => ⟨S_, .f32⟩
  | 78 => ⟨S512x512x1, .f32⟩
  | 79 => ⟨S512x512x1, .f32⟩
  | 80 => ⟨S512x512x128, .f32⟩
  | 81 => ⟨S512x512x128, .f32⟩
  | 82 => ⟨S512x16x512, .f32⟩
  | 83 => ⟨S_, .f32⟩
  | 84 => ⟨S512x16x512, .f32⟩
  | 85 => ⟨S512x16x512, .f32⟩
  | 86 => ⟨S512x16x512, .f32⟩
  | 87 => ⟨S_, .f32⟩
  | 88 => ⟨S512x16x512, .f32⟩
  | 89 => ⟨S512x16x512, .f32⟩
  | 90 => ⟨S_, .f32⟩
  | 91 => ⟨S512x16x512, .f32⟩
  | 92 => ⟨S512x16x512, .f32⟩
  | 93 => ⟨S512x16x512, .f32⟩
  | 94 => ⟨S_, .f32⟩
  | 95 => ⟨S512x16, .f32⟩
  | 96 => ⟨S512x16, .f32⟩
  | 97 => ⟨S_, .f32⟩
  | 98 => ⟨S512, .f32⟩
  | 99 => ⟨S_, .f32⟩
  | 100 => ⟨S512x16x512, .f32⟩
  | 101 => ⟨S512x16x512, .f32⟩
  | 102 => ⟨S512x16x512, .f32⟩
  | 103 => ⟨S_, .f32⟩
  | 104 => ⟨S512x16x512, .f32⟩
  | 105 => ⟨S512x16x512, .f32⟩
  | 106 => ⟨S_, .f32⟩
  | 107 => ⟨S512x16x512, .f32⟩
  | 108 => ⟨S512x16x512, .f32⟩
  | 109 => ⟨S512x16x512, .f32⟩
  | 110 => ⟨S_, .f32⟩
  | 111 => ⟨S512x16, .f32⟩
  | 112 => ⟨S512x16, .f32⟩
  | 113 => ⟨S_, .f32⟩
  | 114 => ⟨S512, .f32⟩
  | 115 => ⟨S_, .f32⟩
  | 116 => ⟨S512x16x512, .f32⟩
  | 117 => ⟨S512x16x512, .f32⟩
  | 118 => ⟨S512x16x512, .f32⟩
  | 119 => ⟨S_, .f32⟩
  | 120 => ⟨S512x16x512, .f32⟩
  | 121 => ⟨S512x16x512, .f32⟩
  | 122 => ⟨S_, .f32⟩
  | 123 => ⟨S512x16x512, .f32⟩
  | 124 => ⟨S512x16x512, .f32⟩
  | 125 => ⟨S512x16x512, .f32⟩
  | 126 => ⟨S_, .f32⟩
  | 127 => ⟨S512x16, .f32⟩
  | _ => ⟨S512x16, .i32⟩

abbrev hbmTy0_4 (i : Nat) : BufTy := match i % 128 with
  | 0 => ⟨S512x16, .f32⟩
  | 1 => ⟨S_, .f32⟩
  | 2 => ⟨S512, .f32⟩
  | 3 => ⟨S_, .f32⟩
  | 4 => ⟨S512x16x512, .f32⟩
  | 5 => ⟨S512x16x512, .f32⟩
  | 6 => ⟨S512x16x512, .f32⟩
  | 7 => ⟨S_, .f32⟩
  | 8 => ⟨S512x16x512, .f32⟩
  | 9 => ⟨S512x16x512, .f32⟩
  | 10 => ⟨S_, .f32⟩
  | 11 => ⟨S512x16x512, .f32⟩
  | 12 => ⟨S512x16x512, .f32⟩
  | 13 => ⟨S512x16x512, .f32⟩
  | 14 => ⟨S_, .f32⟩
  | 15 => ⟨S512x16, .f32⟩
  | 16 => ⟨S512x16, .f32⟩
  | 17 => ⟨S_, .f32⟩
  | 18 => ⟨S512, .f32⟩
  | 19 => ⟨S_, .f32⟩
  | 20 => ⟨S512x16x512, .f32⟩
  | 21 => ⟨S512x16x512, .f32⟩
  | 22 => ⟨S512x16x512, .f32⟩
  | 23 => ⟨S_, .f32⟩
  | 24 => ⟨S512x16x512, .f32⟩
  | 25 => ⟨S512x16x512, .f32⟩
  | 26 => ⟨S_, .f32⟩
  | 27 => ⟨S512x16x512, .f32⟩
  | 28 => ⟨S512x16x512, .f32⟩
  | 29 => ⟨S512x16x512, .f32⟩
  | 30 => ⟨S_, .f32⟩
  | 31 => ⟨S512x16, .f32⟩
  | 32 => ⟨S512x16, .f32⟩
  | 33 => ⟨S_, .f32⟩
  | 34 => ⟨S512, .f32⟩
  | 35 => ⟨S_, .f32⟩
  | 36 => ⟨S512x16x512, .f32⟩
  | 37 => ⟨S512x16x512, .f32⟩
  | 38 => ⟨S512x16x512, .f32⟩
  | 39 => ⟨S_, .f32⟩
  | 40 => ⟨S512x16x512, .f32⟩
  | 41 => ⟨S512x16x512, .f32⟩
  | 42 => ⟨S_, .f32⟩
  | 43 => ⟨S512x16x512, .f32⟩
  | 44 => ⟨S512x16x512, .f32⟩
  | 45 => ⟨S512x16x512, .f32⟩
  | 46 => ⟨S_, .f32⟩
  | 47 => ⟨S512x16, .f32⟩
  | 48 => ⟨S512x16, .f32⟩
  | 49 => ⟨S_, .f32⟩
  | 50 => ⟨S512, .f32⟩
  | 51 => ⟨S_, .f32⟩
  | 52 => ⟨S512x16x512, .f32⟩
  | 53 => ⟨S512x16x512, .f32⟩
  | 54 => ⟨S512x16x512, .f32⟩
  | 55 => ⟨S_, .f32⟩
  | 56 => ⟨S512x16x512, .f32⟩
  | 57 => ⟨S512x16x512, .f32⟩
  | 58 => ⟨S_, .f32⟩
  | 59 => ⟨S512x16x512, .f32⟩
  | 60 => ⟨S512x16x512, .f32⟩
  | 61 => ⟨S512x16x512, .f32⟩
  | 62 => ⟨S_, .f32⟩
  | 63 => ⟨S512x16, .f32⟩
  | 64 => ⟨S512x16, .f32⟩
  | 65 => ⟨S_, .f32⟩
  | 66 => ⟨S512, .f32⟩
  | 67 => ⟨S_, .f32⟩
  | 68 => ⟨S512x16x512, .f32⟩
  | 69 => ⟨S512x16x512, .f32⟩
  | 70 => ⟨S512x16x512, .f32⟩
  | 71 => ⟨S_, .f32⟩
  | 72 => ⟨S512x16x512, .f32⟩
  | 73 => ⟨S512x16x512, .f32⟩
  | 74 => ⟨S_, .f32⟩
  | 75 => ⟨S512x16x512, .f32⟩
  | 76 => ⟨S512x16x512, .f32⟩
  | 77 => ⟨S512x16x512, .f32⟩
  | 78 => ⟨S_, .f32⟩
  | 79 => ⟨S512x16, .f32⟩
  | 80 => ⟨S512x16, .f32⟩
  | 81 => ⟨S_, .f32⟩
  | 82 => ⟨S512, .f32⟩
  | 83 => ⟨S_, .f32⟩
  | 84 => ⟨S512x16x512, .f32⟩
  | 85 => ⟨S512x16x512, .f32⟩
  | 86 => ⟨S512x16x512, .f32⟩
  | 87 => ⟨S_, .f32⟩
  | 88 => ⟨S512x16x512, .f32⟩
  | 89 => ⟨S512x16x512, .f32⟩
  | 90 => ⟨S_, .f32⟩
  | 91 => ⟨S512x16x512, .f32⟩
  | 92 => ⟨S512x16x512, .f32⟩
  | 93 => ⟨S512x16x512, .f32⟩
  | 94 => ⟨S_, .f32⟩
  | 95 => ⟨S512x16, .f32⟩
  | 96 => ⟨S512x16, .f32⟩
  | 97 => ⟨S_, .f32⟩
  | 98 => ⟨S512, .f32⟩
  | 99 => ⟨S_, .f32⟩
  | 100 => ⟨S512x16x512, .f32⟩
  | 101 => ⟨S512x16x512, .f32⟩
  | 102 => ⟨S512x16x512, .f32⟩
  | 103 => ⟨S_, .f32⟩
  | 104 => ⟨S512x16x512, .f32⟩
  | 105 => ⟨S512x16x512, .f32⟩
  | 106 => ⟨S_, .f32⟩
  | 107 => ⟨S512x16x512, .f32⟩
  | 108 => ⟨S512x16x512, .f32⟩
  | 109 => ⟨S512x16x512, .f32⟩
  | 110 => ⟨S_, .f32⟩
  | 111 => ⟨S512x16, .f32⟩
  | 112 => ⟨S512x16, .f32⟩
  | 113 => ⟨S_, .f32⟩
  | 114 => ⟨S512, .f32⟩
  | 115 => ⟨S_, .f32⟩
  | 116 => ⟨S512x16x512, .f32⟩
  | 117 => ⟨S512x16x512, .f32⟩
  | 118 => ⟨S512x16x512, .f32⟩
  | 119 => ⟨S_, .f32⟩
  | 120 => ⟨S512x16x512, .f32⟩
  | 121 => ⟨S512x16x512, .f32⟩
  | 122 => ⟨S_, .f32⟩
  | 123 => ⟨S512x16x512, .f32⟩
  | 124 => ⟨S512x16x512, .f32⟩
  | 125 => ⟨S512x16x512, .f32⟩
  | 126 => ⟨S_, .f32⟩
  | 127 => ⟨S512x16, .f32⟩
  | _ => ⟨S512x16, .i32⟩

abbrev hbmTy0_5 (i : Nat) : BufTy := match i % 128 with
  | 0 => ⟨S512x16, .f32⟩
  | 1 => ⟨S_, .f32⟩
  | 2 => ⟨S512, .f32⟩
  | 3 => ⟨S_, .f32⟩
  | 4 => ⟨S512x16x512, .f32⟩
  | 5 => ⟨S512x16x512, .f32⟩
  | 6 => ⟨S512x16x512, .f32⟩
  | 7 => ⟨S_, .f32⟩
  | 8 => ⟨S512x16x512, .f32⟩
  | 9 => ⟨S512x16x512, .f32⟩
  | 10 => ⟨S_, .f32⟩
  | 11 => ⟨S512x16x512, .f32⟩
  | 12 => ⟨S512x16x512, .f32⟩
  | 13 => ⟨S512x16x512, .f32⟩
  | 14 => ⟨S_, .f32⟩
  | 15 => ⟨S512x16, .f32⟩
  | 16 => ⟨S512x16, .f32⟩
  | 17 => ⟨S_, .f32⟩
  | 18 => ⟨S512, .f32⟩
  | 19 => ⟨S_, .f32⟩
  | 20 => ⟨S512x16x512, .f32⟩
  | 21 => ⟨S512x16x512, .f32⟩
  | 22 => ⟨S512x16x512, .f32⟩
  | 23 => ⟨S_, .f32⟩
  | 24 => ⟨S512x16x512, .f32⟩
  | 25 => ⟨S512x16x512, .f32⟩
  | 26 => ⟨S_, .f32⟩
  | 27 => ⟨S512x16x512, .f32⟩
  | 28 => ⟨S512x16x512, .f32⟩
  | 29 => ⟨S512x16x512, .f32⟩
  | 30 => ⟨S_, .f32⟩
  | 31 => ⟨S512x16, .f32⟩
  | 32 => ⟨S512x16, .f32⟩
  | 33 => ⟨S_, .f32⟩
  | 34 => ⟨S512, .f32⟩
  | 35 => ⟨S_, .f32⟩
  | 36 => ⟨S512x16x512, .f32⟩
  | 37 => ⟨S512x16x512, .f32⟩
  | 38 => ⟨S512x16x512, .f32⟩
  | 39 => ⟨S_, .f32⟩
  | 40 => ⟨S512x16x512, .f32⟩
  | 41 => ⟨S512x16x512, .f32⟩
  | 42 => ⟨S_, .f32⟩
  | 43 => ⟨S512x16x512, .f32⟩
  | 44 => ⟨S512x16x512, .f32⟩
  | 45 => ⟨S512x16x512, .f32⟩
  | 46 => ⟨S_, .f32⟩
  | 47 => ⟨S512x16, .f32⟩
  | 48 => ⟨S512x16, .f32⟩
  | 49 => ⟨S_, .f32⟩
  | 50 => ⟨S512, .f32⟩
  | 51 => ⟨S_, .f32⟩
  | 52 => ⟨S512x16x512, .f32⟩
  | 53 => ⟨S512x16x512, .f32⟩
  | 54 => ⟨S512x16x512, .f32⟩
  | 55 => ⟨S_, .f32⟩
  | 56 => ⟨S512x16x512, .f32⟩
  | 57 => ⟨S512x16x512, .f32⟩
  | 58 => ⟨S_, .f32⟩
  | 59 => ⟨S512x16x512, .f32⟩
  | 60 => ⟨S512x16x512, .f32⟩
  | 61 => ⟨S512x16x512, .f32⟩
  | 62 => ⟨S_, .f32⟩
  | 63 => ⟨S512x16, .f32⟩
  | 64 => ⟨S512x16, .f32⟩
  | 65 => ⟨S_, .f32⟩
  | 66 => ⟨S512, .f32⟩
  | 67 => ⟨S_, .f32⟩
  | 68 => ⟨S512x16x512, .f32⟩
  | 69 => ⟨S512x16x512, .f32⟩
  | 70 => ⟨S512x16x512, .f32⟩
  | 71 => ⟨S_, .f32⟩
  | 72 => ⟨S512x16x512, .f32⟩
  | 73 => ⟨S512x16x512, .f32⟩
  | 74 => ⟨S_, .f32⟩
  | 75 => ⟨S512x16x512, .f32⟩
  | 76 => ⟨S512x16x512, .f32⟩
  | 77 => ⟨S512x16x512, .f32⟩
  | 78 => ⟨S_, .f32⟩
  | 79 => ⟨S512x16, .f32⟩
  | 80 => ⟨S512x16, .f32⟩
  | 81 => ⟨S_, .f32⟩
  | 82 => ⟨S512, .f32⟩
  | 83 => ⟨S_, .f32⟩
  | 84 => ⟨S512x16x512, .f32⟩
  | 85 => ⟨S512x16x512, .f32⟩
  | 86 => ⟨S512x16x512, .f32⟩
  | 87 => ⟨S_, .f32⟩
  | 88 => ⟨S512x16x512, .f32⟩
  | 89 => ⟨S512x16x512, .f32⟩
  | 90 => ⟨S_, .f32⟩
  | 91 => ⟨S512x16x512, .f32⟩
  | 92 => ⟨S512x16x512, .f32⟩
  | 93 => ⟨S512x16x512, .f32⟩
  | 94 => ⟨S_, .f32⟩
  | 95 => ⟨S512x16, .f32⟩
  | 96 => ⟨S512x16, .f32⟩
  | 97 => ⟨S_, .f32⟩
  | 98 => ⟨S512, .f32⟩
  | 99 => ⟨S_, .f32⟩
  | 100 => ⟨S512x16x512, .f32⟩
  | 101 => ⟨S512x16x512, .f32⟩
  | 102 => ⟨S512x16x512, .f32⟩
  | 103 => ⟨S_, .f32⟩
  | 104 => ⟨S512x16x512, .f32⟩
  | 105 => ⟨S512x16x512, .f32⟩
  | 106 => ⟨S_, .f32⟩
  | 107 => ⟨S512x16x512, .f32⟩
  | 108 => ⟨S512x16x512, .f32⟩
  | 109 => ⟨S512x16x512, .f32⟩
  | 110 => ⟨S_, .f32⟩
  | 111 => ⟨S512x16, .f32⟩
  | 112 => ⟨S512x16, .f32⟩
  | 113 => ⟨S_, .f32⟩
  | 114 => ⟨S512, .f32⟩
  | 115 => ⟨S_, .f32⟩
  | 116 => ⟨S512x16x512, .f32⟩
  | 117 => ⟨S512x16x512, .f32⟩
  | 118 => ⟨S512x16x512, .f32⟩
  | 119 => ⟨S_, .f32⟩
  | 120 => ⟨S512x16x512, .f32⟩
  | 121 => ⟨S512x16x512, .f32⟩
  | 122 => ⟨S_, .f32⟩
  | 123 => ⟨S512x16x512, .f32⟩
  | 124 => ⟨S512x16x512, .f32⟩
  | 125 => ⟨S512x16x512, .f32⟩
  | 126 => ⟨S_, .f32⟩
  | 127 => ⟨S512x16, .f32⟩
  | _ => ⟨S512x16, .i32⟩

abbrev hbmTy0_6 (i : Nat) : BufTy := match i % 128 with
  | 0 => ⟨S512x16, .f32⟩
  | 1 => ⟨S_, .f32⟩
  | 2 => ⟨S512, .f32⟩
  | 3 => ⟨S_, .f32⟩
  | 4 => ⟨S512x16x512, .f32⟩
  | 5 => ⟨S512x16x512, .f32⟩
  | 6 => ⟨S512x16x512, .f32⟩
  | 7 => ⟨S_, .f32⟩
  | 8 => ⟨S512x16x512, .f32⟩
  | 9 => ⟨S512x16x512, .f32⟩
  | 10 => ⟨S_, .f32⟩
  | 11 => ⟨S512x16x512, .f32⟩
  | 12 => ⟨S512x16x512, .f32⟩
  | 13 => ⟨S512x16x512, .f32⟩
  | 14 => ⟨S_, .f32⟩
  | 15 => ⟨S512x16, .f32⟩
  | 16 => ⟨S512x16, .f32⟩
  | 17 => ⟨S_, .f32⟩
  | 18 => ⟨S512, .f32⟩
  | 19 => ⟨S_, .f32⟩
  | 20 => ⟨S512x16x512, .f32⟩
  | 21 => ⟨S512x16x512, .f32⟩
  | 22 => ⟨S512x16x512, .f32⟩
  | 23 => ⟨S_, .f32⟩
  | 24 => ⟨S512x16x512, .f32⟩
  | 25 => ⟨S512x16x512, .f32⟩
  | 26 => ⟨S_, .f32⟩
  | 27 => ⟨S512x16x512, .f32⟩
  | 28 => ⟨S512x16x512, .f32⟩
  | 29 => ⟨S512x16x512, .f32⟩
  | 30 => ⟨S_, .f32⟩
  | 31 => ⟨S512x16, .f32⟩
  | 32 => ⟨S512x16, .f32⟩
  | 33 => ⟨S_, .f32⟩
  | 34 => ⟨S512, .f32⟩
  | 35 => ⟨S512x1, .f32⟩
  | 36 => ⟨S512x1, .f32⟩
  | 37 => ⟨S512x1, .f32⟩
  | 38 => ⟨S512x1, .f32⟩
  | 39 => ⟨S512x1, .f32⟩
  | 40 => ⟨S512x1, .f32⟩
  | 41 => ⟨S512x1, .f32⟩
  | 42 => ⟨S512x1, .f32⟩
  | 43 => ⟨S512x1, .f32⟩
  | 44 => ⟨S512x1, .f32⟩
  | 45 => ⟨S512x1, .f32⟩
  | 46 => ⟨S512x1, .f32⟩
  | 47 => ⟨S512x1, .f32⟩
  | 48 => ⟨S512x1, .f32⟩
  | 49 => ⟨S512x1, .f32⟩
  | 50 => ⟨S512x1, .f32⟩
  | 51 => ⟨S512x1, .f32⟩
  | 52 => ⟨S512x1, .f32⟩
  | 53 => ⟨S512x1, .f32⟩
  | 54 => ⟨S512x1, .f32⟩
  | 55 => ⟨S512x1, .f32⟩
  | 56 => ⟨S512x16, .f32⟩
  | 57 => ⟨S512x5, .f32⟩
  | 58 => ⟨S512x21, .f32⟩
  | 59 => ⟨S512x10, .f32⟩
  | 60 => ⟨S1x10, .f32⟩
  | 61 => ⟨S512x10, .f32⟩
  | 62 => ⟨S512x10, .f32⟩
  | 63 => ⟨S_, .f32⟩
  | 64 => ⟨S512x10, .f32⟩
  | 65 => ⟨S512x10, .f32⟩
  | 66 => ⟨S512x5, .f32⟩
  | 67 => ⟨S1x5, .f32⟩
  | 68 => ⟨S512x5, .f32⟩
  | 69 => ⟨S512x5, .f32⟩
  | 70 => ⟨S_, .f32⟩
  | 71 => ⟨S512x5, .f32⟩
  | 72 => ⟨S512x5, .f32⟩
  | 73 => ⟨S512x1, .f32⟩
  | 74 => ⟨S1x1, .f32⟩
  | 75 => ⟨S512x1, .f32⟩
  | 76 => ⟨S512x1, .f32⟩
  | 77 => ⟨S512x1, .f32⟩
  | 78 => ⟨S512x1, .f32⟩
  | 79 => ⟨S512x1, .f32⟩
  | 80 => ⟨S_, .f32⟩
  | 81 => ⟨S512x1, .f32⟩
  | 82 => ⟨S512x1, .f32⟩
  | 83 => ⟨S_, .f32⟩
  | 84 => ⟨S512x1, .f32⟩
  | 85 => ⟨S512x1, .f32⟩
  | _ => ⟨S512x16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S512x16, .i32⟩

abbrev bufTy : (tb : Table) → Fin (tcTables nBuf tb) → BufTy
  | .hbm, ⟨i, _⟩ => hbmTy i
  | _, _ => ⟨S512x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_cst_13 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_14 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_17 : Ref sig .tc := ⟨.hbm, 86, rfl⟩
abbrev main_v56 : Ref sig .tc := ⟨.hbm, 87, rfl⟩
abbrev main_v57 : Ref sig .tc := ⟨.hbm, 88, rfl⟩
abbrev main_cst_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_v62 : Ref sig .tc := ⟨.hbm, 95, rfl⟩
abbrev main_cst_20 : Ref sig .tc := ⟨.hbm, 96, rfl⟩
abbrev main_v63 : Ref sig .tc := ⟨.hbm, 97, rfl⟩
abbrev main_cst_21 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_22 : Ref sig .tc := ⟨.hbm, 102, rfl⟩
abbrev main_v67 : Ref sig .tc := ⟨.hbm, 103, rfl⟩
abbrev main_v68 : Ref sig .tc := ⟨.hbm, 104, rfl⟩
abbrev main_cst_23 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_24 : Ref sig .tc := ⟨.hbm, 109, rfl⟩
abbrev main_v72 : Ref sig .tc := ⟨.hbm, 110, rfl⟩
abbrev main_v73 : Ref sig .tc := ⟨.hbm, 111, rfl⟩
abbrev main_cst_25 : Ref sig .tc := ⟨.hbm, 112, rfl⟩
abbrev main_v74 : Ref sig .tc := ⟨.hbm, 113, rfl⟩
abbrev main_cst_26 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_27 : Ref sig .tc := ⟨.hbm, 118, rfl⟩
abbrev main_v78 : Ref sig .tc := ⟨.hbm, 119, rfl⟩
abbrev main_v79 : Ref sig .tc := ⟨.hbm, 120, rfl⟩
abbrev main_cst_28 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_29 : Ref sig .tc := ⟨.hbm, 125, rfl⟩
abbrev main_v83 : Ref sig .tc := ⟨.hbm, 126, rfl⟩
abbrev main_v84 : Ref sig .tc := ⟨.hbm, 127, rfl⟩
abbrev main_cst_30 : Ref sig .tc := ⟨.hbm, 128, rfl⟩
abbrev main_v85 : Ref sig .tc := ⟨.hbm, 129, rfl⟩
abbrev main_cst_31 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_32 : Ref sig .tc := ⟨.hbm, 134, rfl⟩
abbrev main_v89 : Ref sig .tc := ⟨.hbm, 135, rfl⟩
abbrev main_v90 : Ref sig .tc := ⟨.hbm, 136, rfl⟩
abbrev main_cst_33 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_34 : Ref sig .tc := ⟨.hbm, 141, rfl⟩
abbrev main_v94 : Ref sig .tc := ⟨.hbm, 142, rfl⟩
abbrev main_v95 : Ref sig .tc := ⟨.hbm, 143, rfl⟩
abbrev main_cst_35 : Ref sig .tc := ⟨.hbm, 144, rfl⟩
abbrev main_v96 : Ref sig .tc := ⟨.hbm, 145, rfl⟩
abbrev main_cst_36 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_37 : Ref sig .tc := ⟨.hbm, 150, rfl⟩
abbrev main_v100 : Ref sig .tc := ⟨.hbm, 151, rfl⟩
abbrev main_v101 : Ref sig .tc := ⟨.hbm, 152, rfl⟩
abbrev main_cst_38 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_39 : Ref sig .tc := ⟨.hbm, 157, rfl⟩
abbrev main_v105 : Ref sig .tc := ⟨.hbm, 158, rfl⟩
abbrev main_v106 : Ref sig .tc := ⟨.hbm, 159, rfl⟩
abbrev main_cst_40 : Ref sig .tc := ⟨.hbm, 160, rfl⟩
abbrev main_v107 : Ref sig .tc := ⟨.hbm, 161, rfl⟩
abbrev main_cst_41 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_42 : Ref sig .tc := ⟨.hbm, 166, rfl⟩
abbrev main_v111 : Ref sig .tc := ⟨.hbm, 167, rfl⟩
abbrev main_v112 : Ref sig .tc := ⟨.hbm, 168, rfl⟩
abbrev main_cst_43 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_44 : Ref sig .tc := ⟨.hbm, 173, rfl⟩
abbrev main_v116 : Ref sig .tc := ⟨.hbm, 174, rfl⟩
abbrev main_v117 : Ref sig .tc := ⟨.hbm, 175, rfl⟩
abbrev main_cst_45 : Ref sig .tc := ⟨.hbm, 176, rfl⟩
abbrev main_v118 : Ref sig .tc := ⟨.hbm, 177, rfl⟩
abbrev main_cst_46 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_47 : Ref sig .tc := ⟨.hbm, 182, rfl⟩
abbrev main_v122 : Ref sig .tc := ⟨.hbm, 183, rfl⟩
abbrev main_v123 : Ref sig .tc := ⟨.hbm, 184, rfl⟩
abbrev main_cst_48 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_49 : Ref sig .tc := ⟨.hbm, 189, rfl⟩
abbrev main_v127 : Ref sig .tc := ⟨.hbm, 190, rfl⟩
abbrev main_v128 : Ref sig .tc := ⟨.hbm, 191, rfl⟩
abbrev main_cst_50 : Ref sig .tc := ⟨.hbm, 192, rfl⟩
abbrev main_v129 : Ref sig .tc := ⟨.hbm, 193, rfl⟩
abbrev main_cst_51 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_52 : Ref sig .tc := ⟨.hbm, 198, rfl⟩
abbrev main_v133 : Ref sig .tc := ⟨.hbm, 199, rfl⟩
abbrev main_v134 : Ref sig .tc := ⟨.hbm, 200, rfl⟩
abbrev main_cst_53 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_cst_54 : Ref sig .tc := ⟨.hbm, 205, rfl⟩
abbrev main_v138 : Ref sig .tc := ⟨.hbm, 206, rfl⟩
abbrev main_v139 : Ref sig .tc := ⟨.hbm, 207, rfl⟩
abbrev main_cst_55 : Ref sig .tc := ⟨.hbm, 208, rfl⟩
abbrev main_v140 : Ref sig .tc := ⟨.hbm, 209, rfl⟩
abbrev main_cst_56 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_57 : Ref sig .tc := ⟨.hbm, 214, rfl⟩
abbrev main_v144 : Ref sig .tc := ⟨.hbm, 215, rfl⟩
abbrev main_v145 : Ref sig .tc := ⟨.hbm, 216, rfl⟩
abbrev main_cst_58 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_59 : Ref sig .tc := ⟨.hbm, 221, rfl⟩
abbrev main_v149 : Ref sig .tc := ⟨.hbm, 222, rfl⟩
abbrev main_v150 : Ref sig .tc := ⟨.hbm, 223, rfl⟩
abbrev main_cst_60 : Ref sig .tc := ⟨.hbm, 224, rfl⟩
abbrev main_v151 : Ref sig .tc := ⟨.hbm, 225, rfl⟩
abbrev main_cst_61 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_cst_62 : Ref sig .tc := ⟨.hbm, 230, rfl⟩
abbrev main_v155 : Ref sig .tc := ⟨.hbm, 231, rfl⟩
abbrev main_v156 : Ref sig .tc := ⟨.hbm, 232, rfl⟩
abbrev main_cst_63 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_cst_64 : Ref sig .tc := ⟨.hbm, 237, rfl⟩
abbrev main_v160 : Ref sig .tc := ⟨.hbm, 238, rfl⟩
abbrev main_v161 : Ref sig .tc := ⟨.hbm, 239, rfl⟩
abbrev main_cst_65 : Ref sig .tc := ⟨.hbm, 240, rfl⟩
abbrev main_v162 : Ref sig .tc := ⟨.hbm, 241, rfl⟩
abbrev main_cst_66 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_67 : Ref sig .tc := ⟨.hbm, 246, rfl⟩
abbrev main_v166 : Ref sig .tc := ⟨.hbm, 247, rfl⟩
abbrev main_v167 : Ref sig .tc := ⟨.hbm, 248, rfl⟩
abbrev main_cst_68 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_cst_69 : Ref sig .tc := ⟨.hbm, 253, rfl⟩
abbrev main_v171 : Ref sig .tc := ⟨.hbm, 254, rfl⟩
abbrev main_v172 : Ref sig .tc := ⟨.hbm, 255, rfl⟩
abbrev main_cst_70 : Ref sig .tc := ⟨.hbm, 256, rfl⟩
abbrev main_v173 : Ref sig .tc := ⟨.hbm, 257, rfl⟩
abbrev main_cst_71 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_cst_72 : Ref sig .tc := ⟨.hbm, 262, rfl⟩
abbrev main_v177 : Ref sig .tc := ⟨.hbm, 263, rfl⟩
abbrev main_v178 : Ref sig .tc := ⟨.hbm, 264, rfl⟩
abbrev main_cst_73 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_cst_74 : Ref sig .tc := ⟨.hbm, 269, rfl⟩
abbrev main_v182 : Ref sig .tc := ⟨.hbm, 270, rfl⟩
abbrev main_v183 : Ref sig .tc := ⟨.hbm, 271, rfl⟩
abbrev main_cst_75 : Ref sig .tc := ⟨.hbm, 272, rfl⟩
abbrev main_v184 : Ref sig .tc := ⟨.hbm, 273, rfl⟩
abbrev main_cst_76 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_cst_77 : Ref sig .tc := ⟨.hbm, 278, rfl⟩
abbrev main_v188 : Ref sig .tc := ⟨.hbm, 279, rfl⟩
abbrev main_v189 : Ref sig .tc := ⟨.hbm, 280, rfl⟩
abbrev main_cst_78 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_cst_79 : Ref sig .tc := ⟨.hbm, 285, rfl⟩
abbrev main_v193 : Ref sig .tc := ⟨.hbm, 286, rfl⟩
abbrev main_v194 : Ref sig .tc := ⟨.hbm, 287, rfl⟩
abbrev main_cst_80 : Ref sig .tc := ⟨.hbm, 288, rfl⟩
abbrev main_v195 : Ref sig .tc := ⟨.hbm, 289, rfl⟩
abbrev main_cst_81 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_cst_82 : Ref sig .tc := ⟨.hbm, 294, rfl⟩
abbrev main_v199 : Ref sig .tc := ⟨.hbm, 295, rfl⟩
abbrev main_v200 : Ref sig .tc := ⟨.hbm, 296, rfl⟩
abbrev main_cst_83 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_cst_84 : Ref sig .tc := ⟨.hbm, 301, rfl⟩
abbrev main_v204 : Ref sig .tc := ⟨.hbm, 302, rfl⟩
abbrev main_v205 : Ref sig .tc := ⟨.hbm, 303, rfl⟩
abbrev main_cst_85 : Ref sig .tc := ⟨.hbm, 304, rfl⟩
abbrev main_v206 : Ref sig .tc := ⟨.hbm, 305, rfl⟩
abbrev main_cst_86 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_cst_87 : Ref sig .tc := ⟨.hbm, 310, rfl⟩
abbrev main_v210 : Ref sig .tc := ⟨.hbm, 311, rfl⟩
abbrev main_v211 : Ref sig .tc := ⟨.hbm, 312, rfl⟩
abbrev main_cst_88 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_cst_89 : Ref sig .tc := ⟨.hbm, 317, rfl⟩
abbrev main_v215 : Ref sig .tc := ⟨.hbm, 318, rfl⟩
abbrev main_v216 : Ref sig .tc := ⟨.hbm, 319, rfl⟩
abbrev main_cst_90 : Ref sig .tc := ⟨.hbm, 320, rfl⟩
abbrev main_v217 : Ref sig .tc := ⟨.hbm, 321, rfl⟩
abbrev main_cst_91 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_cst_92 : Ref sig .tc := ⟨.hbm, 326, rfl⟩
abbrev main_v221 : Ref sig .tc := ⟨.hbm, 327, rfl⟩
abbrev main_v222 : Ref sig .tc := ⟨.hbm, 328, rfl⟩
abbrev main_cst_93 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_cst_94 : Ref sig .tc := ⟨.hbm, 333, rfl⟩
abbrev main_v226 : Ref sig .tc := ⟨.hbm, 334, rfl⟩
abbrev main_v227 : Ref sig .tc := ⟨.hbm, 335, rfl⟩
abbrev main_cst_95 : Ref sig .tc := ⟨.hbm, 336, rfl⟩
abbrev main_v228 : Ref sig .tc := ⟨.hbm, 337, rfl⟩
abbrev main_cst_96 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_cst_97 : Ref sig .tc := ⟨.hbm, 342, rfl⟩
abbrev main_v232 : Ref sig .tc := ⟨.hbm, 343, rfl⟩
abbrev main_v233 : Ref sig .tc := ⟨.hbm, 344, rfl⟩
abbrev main_cst_98 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_cst_99 : Ref sig .tc := ⟨.hbm, 349, rfl⟩
abbrev main_v237 : Ref sig .tc := ⟨.hbm, 350, rfl⟩
abbrev main_v238 : Ref sig .tc := ⟨.hbm, 351, rfl⟩
abbrev main_cst_100 : Ref sig .tc := ⟨.hbm, 352, rfl⟩
abbrev main_v239 : Ref sig .tc := ⟨.hbm, 353, rfl⟩
abbrev main_cst_101 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_cst_102 : Ref sig .tc := ⟨.hbm, 358, rfl⟩
abbrev main_v243 : Ref sig .tc := ⟨.hbm, 359, rfl⟩
abbrev main_v244 : Ref sig .tc := ⟨.hbm, 360, rfl⟩
abbrev main_cst_103 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_cst_104 : Ref sig .tc := ⟨.hbm, 365, rfl⟩
abbrev main_v248 : Ref sig .tc := ⟨.hbm, 366, rfl⟩
abbrev main_v249 : Ref sig .tc := ⟨.hbm, 367, rfl⟩
abbrev main_cst_105 : Ref sig .tc := ⟨.hbm, 368, rfl⟩
abbrev main_v250 : Ref sig .tc := ⟨.hbm, 369, rfl⟩
abbrev main_cst_106 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_cst_107 : Ref sig .tc := ⟨.hbm, 374, rfl⟩
abbrev main_v254 : Ref sig .tc := ⟨.hbm, 375, rfl⟩
abbrev main_v255 : Ref sig .tc := ⟨.hbm, 376, rfl⟩
abbrev main_cst_108 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_cst_109 : Ref sig .tc := ⟨.hbm, 381, rfl⟩
abbrev main_v259 : Ref sig .tc := ⟨.hbm, 382, rfl⟩
abbrev main_v260 : Ref sig .tc := ⟨.hbm, 383, rfl⟩
abbrev main_cst_110 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_v264 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_v283 : Ref sig .tc := ⟨.hbm, 407, rfl⟩
abbrev main_v284 : Ref sig .tc := ⟨.hbm, 408, rfl⟩
abbrev main_v285 : Ref sig .tc := ⟨.hbm, 409, rfl⟩
abbrev main_v286 : Ref sig .tc := ⟨.hbm, 410, rfl⟩
abbrev main_v287 : Ref sig .tc := ⟨.hbm, 411, rfl⟩
abbrev main_v288 : Ref sig .tc := ⟨.hbm, 412, rfl⟩
abbrev main_v289 : Ref sig .tc := ⟨.hbm, 413, rfl⟩
abbrev main_call0_cst : Ref sig .tc := ⟨.hbm, 414, rfl⟩
abbrev main_call0_v0 : Ref sig .tc := ⟨.hbm, 415, rfl⟩
abbrev main_v290 : Ref sig .tc := ⟨.hbm, 416, rfl⟩
abbrev main_v291 : Ref sig .tc := ⟨.hbm, 417, rfl⟩
abbrev main_v292 : Ref sig .tc := ⟨.hbm, 418, rfl⟩
abbrev main_v293 : Ref sig .tc := ⟨.hbm, 419, rfl⟩
abbrev main_v294 : Ref sig .tc := ⟨.hbm, 420, rfl⟩
abbrev main_call1_cst : Ref sig .tc := ⟨.hbm, 421, rfl⟩
abbrev main_call1_v0 : Ref sig .tc := ⟨.hbm, 422, rfl⟩
abbrev main_v295 : Ref sig .tc := ⟨.hbm, 423, rfl⟩
abbrev main_v296 : Ref sig .tc := ⟨.hbm, 424, rfl⟩
abbrev main_v297 : Ref sig .tc := ⟨.hbm, 425, rfl⟩
abbrev main_v298 : Ref sig .tc := ⟨.hbm, 426, rfl⟩
abbrev main_v299 : Ref sig .tc := ⟨.hbm, 427, rfl⟩
abbrev main_c_111 : Ref sig .tc := ⟨.hbm, 428, rfl⟩
abbrev main_v300 : Ref sig .tc := ⟨.hbm, 429, rfl⟩
abbrev main_v301 : Ref sig .tc := ⟨.hbm, 430, rfl⟩
abbrev main_c_112 : Ref sig .tc := ⟨.hbm, 431, rfl⟩
abbrev main_v302 : Ref sig .tc := ⟨.hbm, 432, rfl⟩
abbrev main_v303 : Ref sig .tc := ⟨.hbm, 433, rfl⟩
abbrev main_v304 : Ref sig .tc := ⟨.hbm, 434, rfl⟩
abbrev main_v305 : Ref sig .tc := ⟨.hbm, 435, rfl⟩
abbrev main_v306 : Ref sig .tc := ⟨.hbm, 436, rfl⟩
abbrev main_v307 : Ref sig .tc := ⟨.hbm, 437, rfl⟩
abbrev main_cst_113 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_cst_114 : Ref sig .tc := ⟨.hbm, 442, rfl⟩
abbrev main_v311 : Ref sig .tc := ⟨.hbm, 443, rfl⟩
abbrev main_v312 : Ref sig .tc := ⟨.hbm, 444, rfl⟩
abbrev main_v313 : Ref sig .tc := ⟨.hbm, 445, rfl⟩
abbrev main_v314 : Ref sig .tc := ⟨.hbm, 446, rfl⟩
abbrev main_c_115 : Ref sig .tc := ⟨.hbm, 447, rfl⟩
abbrev main_v315 : Ref sig .tc := ⟨.hbm, 448, rfl⟩
abbrev main_v316 : Ref sig .tc := ⟨.hbm, 449, rfl⟩
abbrev main_c_116 : Ref sig .tc := ⟨.hbm, 450, rfl⟩
abbrev main_v317 : Ref sig .tc := ⟨.hbm, 451, rfl⟩
abbrev main_v318 : Ref sig .tc := ⟨.hbm, 452, rfl⟩
abbrev main_v319 : Ref sig .tc := ⟨.hbm, 453, rfl⟩
abbrev main_v320 : Ref sig .tc := ⟨.hbm, 454, rfl⟩
abbrev main_v321 : Ref sig .tc := ⟨.hbm, 455, rfl⟩
abbrev main_v322 : Ref sig .tc := ⟨.hbm, 456, rfl⟩
abbrev main_cst_117 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩
abbrev main_cst_118 : Ref sig .tc := ⟨.hbm, 461, rfl⟩
abbrev main_v326 : Ref sig .tc := ⟨.hbm, 462, rfl⟩
abbrev main_v327 : Ref sig .tc := ⟨.hbm, 463, rfl⟩
abbrev main_v328 : Ref sig .tc := ⟨.hbm, 464, rfl⟩
abbrev main_v329 : Ref sig .tc := ⟨.hbm, 465, rfl⟩
abbrev main_v330 : Ref sig .tc := ⟨.hbm, 466, rfl⟩
abbrev main_cst_119 : Ref sig .tc := ⟨.hbm, 467, rfl⟩
abbrev main_v331 : Ref sig .tc := ⟨.hbm, 468, rfl⟩
abbrev main_v332 : Ref sig .tc := ⟨.hbm, 469, rfl⟩
abbrev main_v333 : Ref sig .tc := ⟨.hbm, 470, rfl⟩
abbrev main_cst_120 : Ref sig .tc := ⟨.hbm, 471, rfl⟩
abbrev main_v334 : Ref sig .tc := ⟨.hbm, 472, rfl⟩
abbrev main_v335 : Ref sig .tc := ⟨.hbm, 473, rfl⟩
abbrev main_cst_121 : Ref sig .tc := ⟨.hbm, 474, rfl⟩
abbrev main_v336 : Ref sig .tc := ⟨.hbm, 475, rfl⟩
abbrev main_v337 : Ref sig .tc := ⟨.hbm, 476, rfl⟩
abbrev main_v338 : Ref sig .tc := ⟨.hbm, 477, rfl⟩
abbrev main_cst_122 : Ref sig .tc := ⟨.hbm, 478, rfl⟩
abbrev main_v339 : Ref sig .tc := ⟨.hbm, 479, rfl⟩
abbrev main_v340 : Ref sig .tc := ⟨.hbm, 480, rfl⟩
abbrev main_cst_123 : Ref sig .tc := ⟨.hbm, 481, rfl⟩
abbrev main_v341 : Ref sig .tc := ⟨.hbm, 482, rfl⟩
abbrev main_cst_124 : Ref sig .tc := ⟨.hbm, 483, rfl⟩
abbrev main_v342 : Ref sig .tc := ⟨.hbm, 484, rfl⟩
abbrev main_v343 : Ref sig .tc := ⟨.hbm, 485, rfl⟩
abbrev main_v344 : Ref sig .tc := ⟨.hbm, 486, rfl⟩
abbrev main_cst_125 : Ref sig .tc := ⟨.hbm, 487, rfl⟩
abbrev main_v345 : Ref sig .tc := ⟨.hbm, 488, rfl⟩
abbrev main_v346 : Ref sig .tc := ⟨.hbm, 489, rfl⟩
abbrev main_cst_126 : Ref sig .tc := ⟨.hbm, 490, rfl⟩
abbrev main_v347 : Ref sig .tc := ⟨.hbm, 491, rfl⟩
abbrev main_v348 : Ref sig .tc := ⟨.hbm, 492, rfl⟩
abbrev main_v349 : Ref sig .tc := ⟨.hbm, 493, rfl⟩
abbrev main_cst_127 : Ref sig .tc := ⟨.hbm, 494, rfl⟩
abbrev main_v350 : Ref sig .tc := ⟨.hbm, 495, rfl⟩
abbrev main_v351 : Ref sig .tc := ⟨.hbm, 496, rfl⟩
abbrev main_cst_128 : Ref sig .tc := ⟨.hbm, 497, rfl⟩
abbrev main_v352 : Ref sig .tc := ⟨.hbm, 498, rfl⟩
abbrev main_cst_129 : Ref sig .tc := ⟨.hbm, 499, rfl⟩
abbrev main_v353 : Ref sig .tc := ⟨.hbm, 500, rfl⟩
abbrev main_v354 : Ref sig .tc := ⟨.hbm, 501, rfl⟩
abbrev main_v355 : Ref sig .tc := ⟨.hbm, 502, rfl⟩
abbrev main_cst_130 : Ref sig .tc := ⟨.hbm, 503, rfl⟩
abbrev main_v356 : Ref sig .tc := ⟨.hbm, 504, rfl⟩
abbrev main_v357 : Ref sig .tc := ⟨.hbm, 505, rfl⟩
abbrev main_cst_131 : Ref sig .tc := ⟨.hbm, 506, rfl⟩
abbrev main_v358 : Ref sig .tc := ⟨.hbm, 507, rfl⟩
abbrev main_v359 : Ref sig .tc := ⟨.hbm, 508, rfl⟩
abbrev main_v360 : Ref sig .tc := ⟨.hbm, 509, rfl⟩
abbrev main_cst_132 : Ref sig .tc := ⟨.hbm, 510, rfl⟩
abbrev main_v361 : Ref sig .tc := ⟨.hbm, 511, rfl⟩
abbrev main_v362 : Ref sig .tc := ⟨.hbm, 512, rfl⟩
abbrev main_cst_133 : Ref sig .tc := ⟨.hbm, 513, rfl⟩
abbrev main_v363 : Ref sig .tc := ⟨.hbm, 514, rfl⟩
abbrev main_cst_134 : Ref sig .tc := ⟨.hbm, 515, rfl⟩
abbrev main_v364 : Ref sig .tc := ⟨.hbm, 516, rfl⟩
abbrev main_v365 : Ref sig .tc := ⟨.hbm, 517, rfl⟩
abbrev main_v366 : Ref sig .tc := ⟨.hbm, 518, rfl⟩
abbrev main_cst_135 : Ref sig .tc := ⟨.hbm, 519, rfl⟩
abbrev main_v367 : Ref sig .tc := ⟨.hbm, 520, rfl⟩
abbrev main_v368 : Ref sig .tc := ⟨.hbm, 521, rfl⟩
abbrev main_cst_136 : Ref sig .tc := ⟨.hbm, 522, rfl⟩
abbrev main_v369 : Ref sig .tc := ⟨.hbm, 523, rfl⟩
abbrev main_v370 : Ref sig .tc := ⟨.hbm, 524, rfl⟩
abbrev main_v371 : Ref sig .tc := ⟨.hbm, 525, rfl⟩
abbrev main_cst_137 : Ref sig .tc := ⟨.hbm, 526, rfl⟩
abbrev main_v372 : Ref sig .tc := ⟨.hbm, 527, rfl⟩
abbrev main_v373 : Ref sig .tc := ⟨.hbm, 528, rfl⟩
abbrev main_cst_138 : Ref sig .tc := ⟨.hbm, 529, rfl⟩
abbrev main_v374 : Ref sig .tc := ⟨.hbm, 530, rfl⟩
abbrev main_cst_139 : Ref sig .tc := ⟨.hbm, 531, rfl⟩
abbrev main_v375 : Ref sig .tc := ⟨.hbm, 532, rfl⟩
abbrev main_v376 : Ref sig .tc := ⟨.hbm, 533, rfl⟩
abbrev main_v377 : Ref sig .tc := ⟨.hbm, 534, rfl⟩
abbrev main_cst_140 : Ref sig .tc := ⟨.hbm, 535, rfl⟩
abbrev main_v378 : Ref sig .tc := ⟨.hbm, 536, rfl⟩
abbrev main_v379 : Ref sig .tc := ⟨.hbm, 537, rfl⟩
abbrev main_cst_141 : Ref sig .tc := ⟨.hbm, 538, rfl⟩
abbrev main_v380 : Ref sig .tc := ⟨.hbm, 539, rfl⟩
abbrev main_v381 : Ref sig .tc := ⟨.hbm, 540, rfl⟩
abbrev main_v382 : Ref sig .tc := ⟨.hbm, 541, rfl⟩
abbrev main_cst_142 : Ref sig .tc := ⟨.hbm, 542, rfl⟩
abbrev main_v383 : Ref sig .tc := ⟨.hbm, 543, rfl⟩
abbrev main_v384 : Ref sig .tc := ⟨.hbm, 544, rfl⟩
abbrev main_cst_143 : Ref sig .tc := ⟨.hbm, 545, rfl⟩
abbrev main_v385 : Ref sig .tc := ⟨.hbm, 546, rfl⟩
abbrev main_cst_144 : Ref sig .tc := ⟨.hbm, 547, rfl⟩
abbrev main_v386 : Ref sig .tc := ⟨.hbm, 548, rfl⟩
abbrev main_v387 : Ref sig .tc := ⟨.hbm, 549, rfl⟩
abbrev main_v388 : Ref sig .tc := ⟨.hbm, 550, rfl⟩
abbrev main_cst_145 : Ref sig .tc := ⟨.hbm, 551, rfl⟩
abbrev main_v389 : Ref sig .tc := ⟨.hbm, 552, rfl⟩
abbrev main_v390 : Ref sig .tc := ⟨.hbm, 553, rfl⟩
abbrev main_cst_146 : Ref sig .tc := ⟨.hbm, 554, rfl⟩
abbrev main_v391 : Ref sig .tc := ⟨.hbm, 555, rfl⟩
abbrev main_v392 : Ref sig .tc := ⟨.hbm, 556, rfl⟩
abbrev main_v393 : Ref sig .tc := ⟨.hbm, 557, rfl⟩
abbrev main_cst_147 : Ref sig .tc := ⟨.hbm, 558, rfl⟩
abbrev main_v394 : Ref sig .tc := ⟨.hbm, 559, rfl⟩
abbrev main_v395 : Ref sig .tc := ⟨.hbm, 560, rfl⟩
abbrev main_cst_148 : Ref sig .tc := ⟨.hbm, 561, rfl⟩
abbrev main_v396 : Ref sig .tc := ⟨.hbm, 562, rfl⟩
abbrev main_cst_149 : Ref sig .tc := ⟨.hbm, 563, rfl⟩
abbrev main_v397 : Ref sig .tc := ⟨.hbm, 564, rfl⟩
abbrev main_v398 : Ref sig .tc := ⟨.hbm, 565, rfl⟩
abbrev main_v399 : Ref sig .tc := ⟨.hbm, 566, rfl⟩
abbrev main_cst_150 : Ref sig .tc := ⟨.hbm, 567, rfl⟩
abbrev main_v400 : Ref sig .tc := ⟨.hbm, 568, rfl⟩
abbrev main_v401 : Ref sig .tc := ⟨.hbm, 569, rfl⟩
abbrev main_cst_151 : Ref sig .tc := ⟨.hbm, 570, rfl⟩
abbrev main_v402 : Ref sig .tc := ⟨.hbm, 571, rfl⟩
abbrev main_v403 : Ref sig .tc := ⟨.hbm, 572, rfl⟩
abbrev main_v404 : Ref sig .tc := ⟨.hbm, 573, rfl⟩
abbrev main_cst_152 : Ref sig .tc := ⟨.hbm, 574, rfl⟩
abbrev main_v405 : Ref sig .tc := ⟨.hbm, 575, rfl⟩
abbrev main_v406 : Ref sig .tc := ⟨.hbm, 576, rfl⟩
abbrev main_cst_153 : Ref sig .tc := ⟨.hbm, 577, rfl⟩
abbrev main_v407 : Ref sig .tc := ⟨.hbm, 578, rfl⟩
abbrev main_cst_154 : Ref sig .tc := ⟨.hbm, 579, rfl⟩
abbrev main_v408 : Ref sig .tc := ⟨.hbm, 580, rfl⟩
abbrev main_v409 : Ref sig .tc := ⟨.hbm, 581, rfl⟩
abbrev main_v410 : Ref sig .tc := ⟨.hbm, 582, rfl⟩
abbrev main_cst_155 : Ref sig .tc := ⟨.hbm, 583, rfl⟩
abbrev main_v411 : Ref sig .tc := ⟨.hbm, 584, rfl⟩
abbrev main_v412 : Ref sig .tc := ⟨.hbm, 585, rfl⟩
abbrev main_cst_156 : Ref sig .tc := ⟨.hbm, 586, rfl⟩
abbrev main_v413 : Ref sig .tc := ⟨.hbm, 587, rfl⟩
abbrev main_v414 : Ref sig .tc := ⟨.hbm, 588, rfl⟩
abbrev main_v415 : Ref sig .tc := ⟨.hbm, 589, rfl⟩
abbrev main_cst_157 : Ref sig .tc := ⟨.hbm, 590, rfl⟩
abbrev main_v416 : Ref sig .tc := ⟨.hbm, 591, rfl⟩
abbrev main_v417 : Ref sig .tc := ⟨.hbm, 592, rfl⟩
abbrev main_cst_158 : Ref sig .tc := ⟨.hbm, 593, rfl⟩
abbrev main_v418 : Ref sig .tc := ⟨.hbm, 594, rfl⟩
abbrev main_cst_159 : Ref sig .tc := ⟨.hbm, 595, rfl⟩
abbrev main_v419 : Ref sig .tc := ⟨.hbm, 596, rfl⟩
abbrev main_v420 : Ref sig .tc := ⟨.hbm, 597, rfl⟩
abbrev main_v421 : Ref sig .tc := ⟨.hbm, 598, rfl⟩
abbrev main_cst_160 : Ref sig .tc := ⟨.hbm, 599, rfl⟩
abbrev main_v422 : Ref sig .tc := ⟨.hbm, 600, rfl⟩
abbrev main_v423 : Ref sig .tc := ⟨.hbm, 601, rfl⟩
abbrev main_cst_161 : Ref sig .tc := ⟨.hbm, 602, rfl⟩
abbrev main_v424 : Ref sig .tc := ⟨.hbm, 603, rfl⟩
abbrev main_v425 : Ref sig .tc := ⟨.hbm, 604, rfl⟩
abbrev main_v426 : Ref sig .tc := ⟨.hbm, 605, rfl⟩
abbrev main_cst_162 : Ref sig .tc := ⟨.hbm, 606, rfl⟩
abbrev main_v427 : Ref sig .tc := ⟨.hbm, 607, rfl⟩
abbrev main_v428 : Ref sig .tc := ⟨.hbm, 608, rfl⟩
abbrev main_cst_163 : Ref sig .tc := ⟨.hbm, 609, rfl⟩
abbrev main_v429 : Ref sig .tc := ⟨.hbm, 610, rfl⟩
abbrev main_cst_164 : Ref sig .tc := ⟨.hbm, 611, rfl⟩
abbrev main_v430 : Ref sig .tc := ⟨.hbm, 612, rfl⟩
abbrev main_v431 : Ref sig .tc := ⟨.hbm, 613, rfl⟩
abbrev main_v432 : Ref sig .tc := ⟨.hbm, 614, rfl⟩
abbrev main_cst_165 : Ref sig .tc := ⟨.hbm, 615, rfl⟩
abbrev main_v433 : Ref sig .tc := ⟨.hbm, 616, rfl⟩
abbrev main_v434 : Ref sig .tc := ⟨.hbm, 617, rfl⟩
abbrev main_cst_166 : Ref sig .tc := ⟨.hbm, 618, rfl⟩
abbrev main_v435 : Ref sig .tc := ⟨.hbm, 619, rfl⟩
abbrev main_v436 : Ref sig .tc := ⟨.hbm, 620, rfl⟩
abbrev main_v437 : Ref sig .tc := ⟨.hbm, 621, rfl⟩
abbrev main_cst_167 : Ref sig .tc := ⟨.hbm, 622, rfl⟩
abbrev main_v438 : Ref sig .tc := ⟨.hbm, 623, rfl⟩
abbrev main_v439 : Ref sig .tc := ⟨.hbm, 624, rfl⟩
abbrev main_cst_168 : Ref sig .tc := ⟨.hbm, 625, rfl⟩
abbrev main_v440 : Ref sig .tc := ⟨.hbm, 626, rfl⟩
abbrev main_cst_169 : Ref sig .tc := ⟨.hbm, 627, rfl⟩
abbrev main_v441 : Ref sig .tc := ⟨.hbm, 628, rfl⟩
abbrev main_v442 : Ref sig .tc := ⟨.hbm, 629, rfl⟩
abbrev main_v443 : Ref sig .tc := ⟨.hbm, 630, rfl⟩
abbrev main_cst_170 : Ref sig .tc := ⟨.hbm, 631, rfl⟩
abbrev main_v444 : Ref sig .tc := ⟨.hbm, 632, rfl⟩
abbrev main_v445 : Ref sig .tc := ⟨.hbm, 633, rfl⟩
abbrev main_cst_171 : Ref sig .tc := ⟨.hbm, 634, rfl⟩
abbrev main_v446 : Ref sig .tc := ⟨.hbm, 635, rfl⟩
abbrev main_v447 : Ref sig .tc := ⟨.hbm, 636, rfl⟩
abbrev main_v448 : Ref sig .tc := ⟨.hbm, 637, rfl⟩
abbrev main_cst_172 : Ref sig .tc := ⟨.hbm, 638, rfl⟩
abbrev main_v449 : Ref sig .tc := ⟨.hbm, 639, rfl⟩
abbrev main_v450 : Ref sig .tc := ⟨.hbm, 640, rfl⟩
abbrev main_cst_173 : Ref sig .tc := ⟨.hbm, 641, rfl⟩
abbrev main_v451 : Ref sig .tc := ⟨.hbm, 642, rfl⟩
abbrev main_cst_174 : Ref sig .tc := ⟨.hbm, 643, rfl⟩
abbrev main_v452 : Ref sig .tc := ⟨.hbm, 644, rfl⟩
abbrev main_v453 : Ref sig .tc := ⟨.hbm, 645, rfl⟩
abbrev main_v454 : Ref sig .tc := ⟨.hbm, 646, rfl⟩
abbrev main_cst_175 : Ref sig .tc := ⟨.hbm, 647, rfl⟩
abbrev main_v455 : Ref sig .tc := ⟨.hbm, 648, rfl⟩
abbrev main_v456 : Ref sig .tc := ⟨.hbm, 649, rfl⟩
abbrev main_cst_176 : Ref sig .tc := ⟨.hbm, 650, rfl⟩
abbrev main_v457 : Ref sig .tc := ⟨.hbm, 651, rfl⟩
abbrev main_v458 : Ref sig .tc := ⟨.hbm, 652, rfl⟩
abbrev main_v459 : Ref sig .tc := ⟨.hbm, 653, rfl⟩
abbrev main_cst_177 : Ref sig .tc := ⟨.hbm, 654, rfl⟩
abbrev main_v460 : Ref sig .tc := ⟨.hbm, 655, rfl⟩
abbrev main_v461 : Ref sig .tc := ⟨.hbm, 656, rfl⟩
abbrev main_cst_178 : Ref sig .tc := ⟨.hbm, 657, rfl⟩
abbrev main_v462 : Ref sig .tc := ⟨.hbm, 658, rfl⟩
abbrev main_cst_179 : Ref sig .tc := ⟨.hbm, 659, rfl⟩
abbrev main_v463 : Ref sig .tc := ⟨.hbm, 660, rfl⟩
abbrev main_v464 : Ref sig .tc := ⟨.hbm, 661, rfl⟩
abbrev main_v465 : Ref sig .tc := ⟨.hbm, 662, rfl⟩
abbrev main_cst_180 : Ref sig .tc := ⟨.hbm, 663, rfl⟩
abbrev main_v466 : Ref sig .tc := ⟨.hbm, 664, rfl⟩
abbrev main_v467 : Ref sig .tc := ⟨.hbm, 665, rfl⟩
abbrev main_cst_181 : Ref sig .tc := ⟨.hbm, 666, rfl⟩
abbrev main_v468 : Ref sig .tc := ⟨.hbm, 667, rfl⟩
abbrev main_v469 : Ref sig .tc := ⟨.hbm, 668, rfl⟩
abbrev main_v470 : Ref sig .tc := ⟨.hbm, 669, rfl⟩
abbrev main_cst_182 : Ref sig .tc := ⟨.hbm, 670, rfl⟩
abbrev main_v471 : Ref sig .tc := ⟨.hbm, 671, rfl⟩
abbrev main_v472 : Ref sig .tc := ⟨.hbm, 672, rfl⟩
abbrev main_cst_183 : Ref sig .tc := ⟨.hbm, 673, rfl⟩
abbrev main_v473 : Ref sig .tc := ⟨.hbm, 674, rfl⟩
abbrev main_cst_184 : Ref sig .tc := ⟨.hbm, 675, rfl⟩
abbrev main_v474 : Ref sig .tc := ⟨.hbm, 676, rfl⟩
abbrev main_v475 : Ref sig .tc := ⟨.hbm, 677, rfl⟩
abbrev main_v476 : Ref sig .tc := ⟨.hbm, 678, rfl⟩
abbrev main_cst_185 : Ref sig .tc := ⟨.hbm, 679, rfl⟩
abbrev main_v477 : Ref sig .tc := ⟨.hbm, 680, rfl⟩
abbrev main_v478 : Ref sig .tc := ⟨.hbm, 681, rfl⟩
abbrev main_cst_186 : Ref sig .tc := ⟨.hbm, 682, rfl⟩
abbrev main_v479 : Ref sig .tc := ⟨.hbm, 683, rfl⟩
abbrev main_v480 : Ref sig .tc := ⟨.hbm, 684, rfl⟩
abbrev main_v481 : Ref sig .tc := ⟨.hbm, 685, rfl⟩
abbrev main_cst_187 : Ref sig .tc := ⟨.hbm, 686, rfl⟩
abbrev main_v482 : Ref sig .tc := ⟨.hbm, 687, rfl⟩
abbrev main_v483 : Ref sig .tc := ⟨.hbm, 688, rfl⟩
abbrev main_cst_188 : Ref sig .tc := ⟨.hbm, 689, rfl⟩
abbrev main_v484 : Ref sig .tc := ⟨.hbm, 690, rfl⟩
abbrev main_cst_189 : Ref sig .tc := ⟨.hbm, 691, rfl⟩
abbrev main_v485 : Ref sig .tc := ⟨.hbm, 692, rfl⟩
abbrev main_v486 : Ref sig .tc := ⟨.hbm, 693, rfl⟩
abbrev main_v487 : Ref sig .tc := ⟨.hbm, 694, rfl⟩
abbrev main_cst_190 : Ref sig .tc := ⟨.hbm, 695, rfl⟩
abbrev main_v488 : Ref sig .tc := ⟨.hbm, 696, rfl⟩
abbrev main_v489 : Ref sig .tc := ⟨.hbm, 697, rfl⟩
abbrev main_cst_191 : Ref sig .tc := ⟨.hbm, 698, rfl⟩
abbrev main_v490 : Ref sig .tc := ⟨.hbm, 699, rfl⟩
abbrev main_v491 : Ref sig .tc := ⟨.hbm, 700, rfl⟩
abbrev main_v492 : Ref sig .tc := ⟨.hbm, 701, rfl⟩
abbrev main_cst_192 : Ref sig .tc := ⟨.hbm, 702, rfl⟩
abbrev main_v493 : Ref sig .tc := ⟨.hbm, 703, rfl⟩
abbrev main_v494 : Ref sig .tc := ⟨.hbm, 704, rfl⟩
abbrev main_cst_193 : Ref sig .tc := ⟨.hbm, 705, rfl⟩
abbrev main_v495 : Ref sig .tc := ⟨.hbm, 706, rfl⟩
abbrev main_cst_194 : Ref sig .tc := ⟨.hbm, 707, rfl⟩
abbrev main_v496 : Ref sig .tc := ⟨.hbm, 708, rfl⟩
abbrev main_v497 : Ref sig .tc := ⟨.hbm, 709, rfl⟩
abbrev main_v498 : Ref sig .tc := ⟨.hbm, 710, rfl⟩
abbrev main_cst_195 : Ref sig .tc := ⟨.hbm, 711, rfl⟩
abbrev main_v499 : Ref sig .tc := ⟨.hbm, 712, rfl⟩
abbrev main_v500 : Ref sig .tc := ⟨.hbm, 713, rfl⟩
abbrev main_cst_196 : Ref sig .tc := ⟨.hbm, 714, rfl⟩
abbrev main_v501 : Ref sig .tc := ⟨.hbm, 715, rfl⟩
abbrev main_v502 : Ref sig .tc := ⟨.hbm, 716, rfl⟩
abbrev main_v503 : Ref sig .tc := ⟨.hbm, 717, rfl⟩
abbrev main_cst_197 : Ref sig .tc := ⟨.hbm, 718, rfl⟩
abbrev main_v504 : Ref sig .tc := ⟨.hbm, 719, rfl⟩
abbrev main_v505 : Ref sig .tc := ⟨.hbm, 720, rfl⟩
abbrev main_cst_198 : Ref sig .tc := ⟨.hbm, 721, rfl⟩
abbrev main_v506 : Ref sig .tc := ⟨.hbm, 722, rfl⟩
abbrev main_cst_199 : Ref sig .tc := ⟨.hbm, 723, rfl⟩
abbrev main_v507 : Ref sig .tc := ⟨.hbm, 724, rfl⟩
abbrev main_v508 : Ref sig .tc := ⟨.hbm, 725, rfl⟩
abbrev main_v509 : Ref sig .tc := ⟨.hbm, 726, rfl⟩
abbrev main_cst_200 : Ref sig .tc := ⟨.hbm, 727, rfl⟩
abbrev main_v510 : Ref sig .tc := ⟨.hbm, 728, rfl⟩
abbrev main_v511 : Ref sig .tc := ⟨.hbm, 729, rfl⟩
abbrev main_cst_201 : Ref sig .tc := ⟨.hbm, 730, rfl⟩
abbrev main_v512 : Ref sig .tc := ⟨.hbm, 731, rfl⟩
abbrev main_v513 : Ref sig .tc := ⟨.hbm, 732, rfl⟩
abbrev main_v514 : Ref sig .tc := ⟨.hbm, 733, rfl⟩
abbrev main_cst_202 : Ref sig .tc := ⟨.hbm, 734, rfl⟩
abbrev main_v515 : Ref sig .tc := ⟨.hbm, 735, rfl⟩
abbrev main_v516 : Ref sig .tc := ⟨.hbm, 736, rfl⟩
abbrev main_cst_203 : Ref sig .tc := ⟨.hbm, 737, rfl⟩
abbrev main_v517 : Ref sig .tc := ⟨.hbm, 738, rfl⟩
abbrev main_cst_204 : Ref sig .tc := ⟨.hbm, 739, rfl⟩
abbrev main_v518 : Ref sig .tc := ⟨.hbm, 740, rfl⟩
abbrev main_v519 : Ref sig .tc := ⟨.hbm, 741, rfl⟩
abbrev main_v520 : Ref sig .tc := ⟨.hbm, 742, rfl⟩
abbrev main_cst_205 : Ref sig .tc := ⟨.hbm, 743, rfl⟩
abbrev main_v521 : Ref sig .tc := ⟨.hbm, 744, rfl⟩
abbrev main_v522 : Ref sig .tc := ⟨.hbm, 745, rfl⟩
abbrev main_cst_206 : Ref sig .tc := ⟨.hbm, 746, rfl⟩
abbrev main_v523 : Ref sig .tc := ⟨.hbm, 747, rfl⟩
abbrev main_v524 : Ref sig .tc := ⟨.hbm, 748, rfl⟩
abbrev main_v525 : Ref sig .tc := ⟨.hbm, 749, rfl⟩
abbrev main_cst_207 : Ref sig .tc := ⟨.hbm, 750, rfl⟩
abbrev main_v526 : Ref sig .tc := ⟨.hbm, 751, rfl⟩
abbrev main_v527 : Ref sig .tc := ⟨.hbm, 752, rfl⟩
abbrev main_cst_208 : Ref sig .tc := ⟨.hbm, 753, rfl⟩
abbrev main_v528 : Ref sig .tc := ⟨.hbm, 754, rfl⟩
abbrev main_cst_209 : Ref sig .tc := ⟨.hbm, 755, rfl⟩
abbrev main_v529 : Ref sig .tc := ⟨.hbm, 756, rfl⟩
abbrev main_v530 : Ref sig .tc := ⟨.hbm, 757, rfl⟩
abbrev main_v531 : Ref sig .tc := ⟨.hbm, 758, rfl⟩
abbrev main_cst_210 : Ref sig .tc := ⟨.hbm, 759, rfl⟩
abbrev main_v532 : Ref sig .tc := ⟨.hbm, 760, rfl⟩
abbrev main_v533 : Ref sig .tc := ⟨.hbm, 761, rfl⟩
abbrev main_cst_211 : Ref sig .tc := ⟨.hbm, 762, rfl⟩
abbrev main_v534 : Ref sig .tc := ⟨.hbm, 763, rfl⟩
abbrev main_v535 : Ref sig .tc := ⟨.hbm, 764, rfl⟩
abbrev main_v536 : Ref sig .tc := ⟨.hbm, 765, rfl⟩
abbrev main_cst_212 : Ref sig .tc := ⟨.hbm, 766, rfl⟩
abbrev main_v537 : Ref sig .tc := ⟨.hbm, 767, rfl⟩
abbrev main_v538 : Ref sig .tc := ⟨.hbm, 768, rfl⟩
abbrev main_cst_213 : Ref sig .tc := ⟨.hbm, 769, rfl⟩
abbrev main_v539 : Ref sig .tc := ⟨.hbm, 770, rfl⟩
abbrev main_cst_214 : Ref sig .tc := ⟨.hbm, 771, rfl⟩
abbrev main_v540 : Ref sig .tc := ⟨.hbm, 772, rfl⟩
abbrev main_v541 : Ref sig .tc := ⟨.hbm, 773, rfl⟩
abbrev main_v542 : Ref sig .tc := ⟨.hbm, 774, rfl⟩
abbrev main_cst_215 : Ref sig .tc := ⟨.hbm, 775, rfl⟩
abbrev main_v543 : Ref sig .tc := ⟨.hbm, 776, rfl⟩
abbrev main_v544 : Ref sig .tc := ⟨.hbm, 777, rfl⟩
abbrev main_cst_216 : Ref sig .tc := ⟨.hbm, 778, rfl⟩
abbrev main_v545 : Ref sig .tc := ⟨.hbm, 779, rfl⟩
abbrev main_v546 : Ref sig .tc := ⟨.hbm, 780, rfl⟩
abbrev main_v547 : Ref sig .tc := ⟨.hbm, 781, rfl⟩
abbrev main_cst_217 : Ref sig .tc := ⟨.hbm, 782, rfl⟩
abbrev main_v548 : Ref sig .tc := ⟨.hbm, 783, rfl⟩
abbrev main_v549 : Ref sig .tc := ⟨.hbm, 784, rfl⟩
abbrev main_cst_218 : Ref sig .tc := ⟨.hbm, 785, rfl⟩
abbrev main_v550 : Ref sig .tc := ⟨.hbm, 786, rfl⟩
abbrev main_cst_219 : Ref sig .tc := ⟨.hbm, 787, rfl⟩
abbrev main_v551 : Ref sig .tc := ⟨.hbm, 788, rfl⟩
abbrev main_v552 : Ref sig .tc := ⟨.hbm, 789, rfl⟩
abbrev main_v553 : Ref sig .tc := ⟨.hbm, 790, rfl⟩
abbrev main_cst_220 : Ref sig .tc := ⟨.hbm, 791, rfl⟩
abbrev main_v554 : Ref sig .tc := ⟨.hbm, 792, rfl⟩
abbrev main_v555 : Ref sig .tc := ⟨.hbm, 793, rfl⟩
abbrev main_cst_221 : Ref sig .tc := ⟨.hbm, 794, rfl⟩
abbrev main_v556 : Ref sig .tc := ⟨.hbm, 795, rfl⟩
abbrev main_v557 : Ref sig .tc := ⟨.hbm, 796, rfl⟩
abbrev main_v558 : Ref sig .tc := ⟨.hbm, 797, rfl⟩
abbrev main_cst_222 : Ref sig .tc := ⟨.hbm, 798, rfl⟩
abbrev main_v559 : Ref sig .tc := ⟨.hbm, 799, rfl⟩
abbrev main_v560 : Ref sig .tc := ⟨.hbm, 800, rfl⟩
abbrev main_cst_223 : Ref sig .tc := ⟨.hbm, 801, rfl⟩
abbrev main_v561 : Ref sig .tc := ⟨.hbm, 802, rfl⟩
abbrev main_v562 : Ref sig .tc := ⟨.hbm, 803, rfl⟩
abbrev main_v563 : Ref sig .tc := ⟨.hbm, 804, rfl⟩
abbrev main_v564 : Ref sig .tc := ⟨.hbm, 805, rfl⟩
abbrev main_v565 : Ref sig .tc := ⟨.hbm, 806, rfl⟩
abbrev main_v566 : Ref sig .tc := ⟨.hbm, 807, rfl⟩
abbrev main_v567 : Ref sig .tc := ⟨.hbm, 808, rfl⟩
abbrev main_v568 : Ref sig .tc := ⟨.hbm, 809, rfl⟩
abbrev main_v569 : Ref sig .tc := ⟨.hbm, 810, rfl⟩
abbrev main_v570 : Ref sig .tc := ⟨.hbm, 811, rfl⟩
abbrev main_v571 : Ref sig .tc := ⟨.hbm, 812, rfl⟩
abbrev main_v572 : Ref sig .tc := ⟨.hbm, 813, rfl⟩
abbrev main_v573 : Ref sig .tc := ⟨.hbm, 814, rfl⟩
abbrev main_v574 : Ref sig .tc := ⟨.hbm, 815, rfl⟩
abbrev main_v575 : Ref sig .tc := ⟨.hbm, 816, rfl⟩
abbrev main_v576 : Ref sig .tc := ⟨.hbm, 817, rfl⟩
abbrev main_v577 : Ref sig .tc := ⟨.hbm, 818, rfl⟩
abbrev main_v578 : Ref sig .tc := ⟨.hbm, 819, rfl⟩
abbrev main_v579 : Ref sig .tc := ⟨.hbm, 820, rfl⟩
abbrev main_v580 : Ref sig .tc := ⟨.hbm, 821, rfl⟩
abbrev main_v581 : Ref sig .tc := ⟨.hbm, 822, rfl⟩
abbrev main_v582 : Ref sig .tc := ⟨.hbm, 823, rfl⟩
abbrev main_v583 : Ref sig .tc := ⟨.hbm, 824, rfl⟩
abbrev main_v584 : Ref sig .tc := ⟨.hbm, 825, rfl⟩
abbrev main_v585 : Ref sig .tc := ⟨.hbm, 826, rfl⟩
abbrev main_v586 : Ref sig .tc := ⟨.hbm, 827, rfl⟩
abbrev main_v587 : Ref sig .tc := ⟨.hbm, 828, rfl⟩
abbrev main_v588 : Ref sig .tc := ⟨.hbm, 829, rfl⟩
abbrev main_v589 : Ref sig .tc := ⟨.hbm, 830, rfl⟩
abbrev main_call2_cst : Ref sig .tc := ⟨.hbm, 831, rfl⟩
abbrev main_call2_v0 : Ref sig .tc := ⟨.hbm, 832, rfl⟩
abbrev main_v590 : Ref sig .tc := ⟨.hbm, 833, rfl⟩
abbrev main_v591 : Ref sig .tc := ⟨.hbm, 834, rfl⟩
abbrev main_v592 : Ref sig .tc := ⟨.hbm, 835, rfl⟩
abbrev main_v593 : Ref sig .tc := ⟨.hbm, 836, rfl⟩
abbrev main_v594 : Ref sig .tc := ⟨.hbm, 837, rfl⟩
abbrev main_call3_cst : Ref sig .tc := ⟨.hbm, 838, rfl⟩
abbrev main_call3_v0 : Ref sig .tc := ⟨.hbm, 839, rfl⟩
abbrev main_v595 : Ref sig .tc := ⟨.hbm, 840, rfl⟩
abbrev main_v596 : Ref sig .tc := ⟨.hbm, 841, rfl⟩
abbrev main_v597 : Ref sig .tc := ⟨.hbm, 842, rfl⟩
abbrev main_v598 : Ref sig .tc := ⟨.hbm, 843, rfl⟩
abbrev main_v599 : Ref sig .tc := ⟨.hbm, 844, rfl⟩
abbrev main_v600 : Ref sig .tc := ⟨.hbm, 845, rfl⟩
abbrev main_v601 : Ref sig .tc := ⟨.hbm, 846, rfl⟩
abbrev main_v602 : Ref sig .tc := ⟨.hbm, 847, rfl⟩
abbrev main_cst_224 : Ref sig .tc := ⟨.hbm, 848, rfl⟩
abbrev main_v603 : Ref sig .tc := ⟨.hbm, 849, rfl⟩
abbrev main_v604 : Ref sig .tc := ⟨.hbm, 850, rfl⟩
abbrev main_cst_225 : Ref sig .tc := ⟨.hbm, 851, rfl⟩
abbrev main_v605 : Ref sig .tc := ⟨.hbm, 852, rfl⟩
abbrev main_v606 : Ref sig .tc := ⟨.hbm, 853, rfl⟩

abbrev nD : Nat := 1
abbrev τ : Topo := Topo.v7x

variable {F : FTy → Type} [FloatOps F]

class Facts₀ : Prop where
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  reducesTo_S512x16x128_S512x16_d2 : S512x16x128.ReducesTo [2] S512x16
  h_S_ : 0 < S_.numel
  bcast_S_S512x16x1 : S_.BroadcastsInDim S512x16x1 (![] : Fin 0 → Fin S512x16x1.rank)
  bcast_S512x16x1_S512x16x128_0_1_2 : S512x16x1.BroadcastsInDim S512x16x128 (![0, 1, 2] : Fin 3 → Fin S512x16x128.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  reducesTo_S512x512x128_S512x512_d2 : S512x512x128.ReducesTo [2] S512x512
  bcast_S_S512x512x1 : S_.BroadcastsInDim S512x512x1 (![] : Fin 0 → Fin S512x512x1.rank)
  bcast_S512x512x1_S512x512x128_0_1_2 : S512x512x1.BroadcastsInDim S512x512x128 (![0, 1, 2] : Fin 3 → Fin S512x512x128.rank)
  bcast_S_S512x16x512 : S_.BroadcastsInDim S512x16x512 (![] : Fin 0 → Fin S512x16x512.rank)
  reducesTo_S512x16x512_S512x16_d2 : S512x16x512.ReducesTo [2] S512x16
  reducesTo_S512x16_S512_d1 : S512x16.ReducesTo [1] S512
  bcast_S512_S512x1_0 : S512.BroadcastsInDim S512x1 (![0] : Fin 1 → Fin S512x1.rank)
  concatenates_S512x1_S512x1_S512x1_S512x1_S512x1_S512x1_S512x1_S512x1_S512x1_S512x1_S512x1_S512x1_S512x1_S512x1_S512x1_S512x1_S512x16_d1 : Shape.Concatenates [S512x1, S512x1, S512x1, S512x1, S512x1, S512x1, S512x1, S512x1, S512x1, S512x1, S512x1, S512x1, S512x1, S512x1, S512x1, S512x1] S512x16 1
  concatenates_S512x1_S512x1_S512x1_S512x1_S512x1_S512x5_d1 : Shape.Concatenates [S512x1, S512x1, S512x1, S512x1, S512x1] S512x5 1
  concatenates_S512x16_S512x5_S512x21_d1 : Shape.Concatenates [S512x16, S512x5] S512x21 1
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  bcast_S_S512x10 : S_.BroadcastsInDim S512x10 (![] : Fin 0 → Fin S512x10.rank)
  bcast_S5_S1x5_1 : S5.BroadcastsInDim S1x5 (![1] : Fin 1 → Fin S1x5.rank)
  bcast_S1x5_S512x5_0_1 : S1x5.BroadcastsInDim S512x5 (![0, 1] : Fin 2 → Fin S512x5.rank)
  bcast_S_S512x5 : S_.BroadcastsInDim S512x5 (![] : Fin 0 → Fin S512x5.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  gather_S100000x128_S512x16x1_S512x16x128_2_0_n_n_0_2_1128_wf : GatherDims.WF S100000x128 S512x16x1 S512x16x128 [2] [0] [] [0] [] 2 ![1, 128]
  gather_S100000x128_S512x512x1_S512x512x128_2_0_n_n_0_2_1128_wf : GatherDims.WF S100000x128 S512x512x1 S512x512x128 [2] [0] [] [0] [] 2 ![1, 128]
  dot_S512x16x128_S512x512x128_S512x16x512_2_2_1_1_0_0_wf : DotDims.WF S512x16x128 S512x512x128 S512x16x512 [2] [2] [1] [1] [0] [0]
  dot_S512x21_S21x10_S512x10_1_0_0_1_n_n_wf : DotDims.WF S512x21 S21x10 S512x10 [1] [0] [0] [1] [] []
  dot_S512x10_S10x5_S512x5_1_0_0_1_n_n_wf : DotDims.WF S512x10 S10x5 S512x5 [1] [0] [0] [1] [] []
  dot_S512x5_S5x1_S512x1_1_0_0_1_n_n_wf : DotDims.WF S512x5 S5x1 S512x1 [1] [0] [0] [1] [] []

variable [Facts₀]

def gather_S100000x128_S512x16x1_S512x16x128_2_0_n_n_0_2_1128 : GatherDims S100000x128 S512x16x1 S512x16x128 where
  offsetDims := [2]
  collapsedSliceDims := [0]
  operandBatchingDims := []
  startIndicesBatchingDims := []
  startIndexMap := [0]
  indexVectorDim := 2
  sliceSizes := ![1, 128]
  wf := gather_S100000x128_S512x16x1_S512x16x128_2_0_n_n_0_2_1128_wf
def gather_S100000x128_S512x512x1_S512x512x128_2_0_n_n_0_2_1128 : GatherDims S100000x128 S512x512x1 S512x512x128 where
  offsetDims := [2]
  collapsedSliceDims := [0]
  operandBatchingDims := []
  startIndicesBatchingDims := []
  startIndexMap := [0]
  indexVectorDim := 2
  sliceSizes := ![1, 128]
  wf := gather_S100000x128_S512x512x1_S512x512x128_2_0_n_n_0_2_1128_wf
def dot_S512x16x128_S512x512x128_S512x16x512_2_2_1_1_0_0 : DotDims S512x16x128 S512x512x128 S512x16x512 where
  lhsContracting := [2]
  rhsContracting := [2]
  lhsNonContracting := [1]
  rhsNonContracting := [1]
  lhsBatch := [0]
  rhsBatch := [0]
  wf := dot_S512x16x128_S512x512x128_S512x16x512_2_2_1_1_0_0_wf
def dot_S512x21_S21x10_S512x10_1_0_0_1_n_n : DotDims S512x21 S21x10 S512x10 where
  lhsContracting := [1]
  rhsContracting := [0]
  lhsNonContracting := [0]
  rhsNonContracting := [1]
  lhsBatch := []
  rhsBatch := []
  wf := dot_S512x21_S21x10_S512x10_1_0_0_1_n_n_wf
def dot_S512x10_S10x5_S512x5_1_0_0_1_n_n : DotDims S512x10 S10x5 S512x5 where
  lhsContracting := [1]
  rhsContracting := [0]
  lhsNonContracting := [0]
  rhsNonContracting := [1]
  lhsBatch := []
  rhsBatch := []
  wf := dot_S512x10_S10x5_S512x5_1_0_0_1_n_n_wf
def dot_S512x5_S5x1_S512x1_1_0_0_1_n_n : DotDims S512x5 S5x1 S512x1 where
  lhsContracting := [1]
  rhsContracting := [0]
  lhsNonContracting := [0]
  rhsNonContracting := [1]
  lhsBatch := []
  rhsBatch := []
  wf := dot_S512x5_S5x1_S512x1_1_0_0_1_n_n_wf

class Facts : Prop extends Facts₀ where

variable [Facts]
-- ==== Proof.Spec.lean ====
/-
  The common value of both programs for one batch row, on the extended reals: embedding rows scaled by their
  clamped Euclidean norms, their cosine table, a 21-bin soft histogram of it, three affine layers, and the logistic
  function of the difference of the two scores. Every sum is a plain finite sum.
-/
import Idealize.ShloMosaic.PureOps.Ideal

noncomputable section

open scoped BigOperators

namespace Cert.Spec

open Idealize.ShloMosaic

abbrev w (b : BitVec 32) : EReal := Ideal.ofBits .f32 b

/-- A row over the larger of its Euclidean norm and a tiny constant. -/
def nrm {L : ℕ} (x : Fin L → Fin 128 → EReal) (l : Fin L) (d : Fin 128) : EReal :=
  Ideal.div (x l d) (max (Ideal.sqrt (∑ d' : Fin 128, x l d' * x l d')) (w 0x2B8CBCCC#32))

/-- Inner products of normalised query rows with normalised document rows. -/
def cosm (q : Fin 16 → Fin 128 → EReal) (k : Fin 512 → Fin 128 → EReal) (l : Fin 16) (r : Fin 512) : EReal :=
  ∑ d : Fin 128, nrm q l d * nrm k r d

/-- One bin: over query rows, `log (1 + ∑ exp (-(M - μ)² / 2σ))`. -/
def feat (μ σ : BitVec 32) (M : Fin 16 → Fin 512 → EReal) : EReal :=
  ∑ l : Fin 16, Ideal.log1p (∑ r : Fin 512,
    Ideal.exp (Ideal.div (w 0xBF000000#32 * ((M l r - w μ) * (M l r - w μ))) (w σ)))

/-- The 21 bin centres. -/
def mus : Fin 21 → BitVec 32 :=
  ![0xBF733333#32, 0xBF59999A#32, 0xBF400000#32, 0xBF266666#32, 0xBF0CCCCD#32, 0xBEE66666#32, 0xBEB33333#32,
    0xBE800000#32, 0xBE19999A#32, 0xBD4CCCCD#32, 0x3D4CCCCD#32, 0x3E19999A#32, 0x3E800000#32, 0x3EB33333#32,
    0x3EE66666#32, 0x3F0CCCCD#32, 0x3F266666#32, 0x3F400000#32, 0x3F59999A#32, 0x3F733333#32, 0x3F800000#32]

/-- The 21 squared bin widths. -/
def sgs : Fin 21 → BitVec 32 :=
  ![0x3C23D70A#32, 0x3C23D70A#32, 0x3C23D70A#32, 0x3C23D70A#32, 0x3C23D70A#32, 0x3C23D70A#32, 0x3C23D70A#32,
    0x3C23D70A#32, 0x3C23D70A#32, 0x3C23D70A#32, 0x3C23D70A#32, 0x3C23D70A#32, 0x3C23D70A#32, 0x3C23D70A#32,
    0x3C23D70A#32, 0x3C23D70A#32, 0x3C23D70A#32, 0x3C23D70A#32, 0x3C23D70A#32, 0x3C23D70A#32, 0x358637BD#32]

def feats (M : Fin 16 → Fin 512 → EReal) (j : Fin 21) : EReal := feat (mus j) (sgs j) M

def lin1 (W1 : Fin 21 → Fin 10 → EReal) (b1 : Fin 10 → EReal) (k : Fin 21 → EReal) (j : Fin 10) : EReal :=
  max ((∑ i : Fin 21, k i * W1 i j) + b1 j) 0

def lin2 (W2 : Fin 10 → Fin 5 → EReal) (b2 : Fin 5 → EReal) (h : Fin 10 → EReal) (j : Fin 5) : EReal :=
  max ((∑ i : Fin 10, h i * W2 i j) + b2 j) 0

def lin3 (W3 : Fin 5 → EReal) (b3 : EReal) (h : Fin 5 → EReal) : EReal :=
  (∑ i : Fin 5, h i * W3 i) + b3

def pred (q : Fin 16 → Fin 128 → EReal) (k : Fin 512 → Fin 128 → EReal)
    (W1 : Fin 21 → Fin 10 → EReal) (b1 : Fin 10 → EReal) (W2 : Fin 10 → Fin 5 → EReal) (b2 : Fin 5 → EReal)
    (W3 : Fin 5 → EReal) (b3 : EReal) : EReal :=
  lin3 W3 b3 (lin2 W2 b2 (lin1 W1 b1 (feats (cosm q k))))

/-- The logistic function of the difference of the two scores. -/
def out (q1 : Fin 16 → Fin 128 → EReal) (k1 : Fin 512 → Fin 128 → EReal)
    (q2 : Fin 16 → Fin 128 → EReal) (k2 : Fin 512 → Fin 128 → EReal)
    (W1 : Fin 21 → Fin 10 → EReal) (b1 : Fin 10 → EReal) (W2 : Fin 10 → Fin 5 → EReal) (b2 : Fin 5 → EReal)
    (W3 : Fin 5 → EReal) (b3 : EReal) : EReal :=
  Ideal.logistic (pred q1 k1 W1 b1 W2 b2 W3 b3 - pred q2 k2 W1 b1 W2 b2 W3 b3)

end Cert.Spec

end
-- ==== Proof.KSide.lean ====
/-
  The kernel body's stored block read one batch row at a time: row `i` of the 16-row output block is
  `Cert.Spec.out` of row `i` of each of the four embedding blocks and of the weights.
-/
import proofs.«417505_j37409165148283_1_alg».proof.Proof.Gen.KernelIdeal.Frame
import proofs.«417505_j37409165148283_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

open scoped BigOperators

namespace Cert.KSide

open Cert.KernelIdeal Cert.KernelIdeal.Gen Idealize.ShloMosaic Idealize.ShloMosaic.ValueIdx

section Chains

variable {F : FTy → Type} [FloatOps F]

/-- The rows of a query block, each over the larger of its norm and the tiny constant. -/
def knrmQ (v0 : Vec F S16x16x128 .f32) : FVec F S16x16x128 .f32 :=
  have v1 : FVec F S16x16x128 .f32 := shapeCast S16x16x128 v0 shapeCasts_S16x16x128_S16x16x128
  have v3 : FVec F S16x16 .f32 := multiReduction .add [2] S16x16 (mulf v1 v1) 0x00000000#32 reduces_S16x16x128_S16x16 (.inl rfl) rfl
  have v7 : FVec F S16x16x1 .f32 :=
    maximumf (sqrt (shapeCast S16x16x1 v3 shapeCasts_S16x16_S16x16x1)) (broadcast S16x16x1 (Scalar.ofBits .f32 0x2B8CBCCC#32))
  divf v1 (broadcastTo S16x16x128 v7 broadcasts_S16x16x1_S16x16x128)

def knrmK (v10 : Vec F S16x512x128 .f32) : FVec F S16x512x128 .f32 :=
  have v11 : FVec F S16x512x128 .f32 := shapeCast S16x512x128 v10 shapeCasts_S16x512x128_S16x512x128
  have v13 : FVec F S16x512 .f32 := multiReduction .add [2] S16x512 (mulf v11 v11) 0x00000000#32 reduces_S16x512x128_S16x512 (.inl rfl) rfl
  have v17 : FVec F S16x512x1 .f32 :=
    maximumf (sqrt (shapeCast S16x512x1 v13 shapeCasts_S16x512_S16x512x1)) (broadcast S16x512x1 (Scalar.ofBits .f32 0x2B8CBCCC#32))
  divf v11 (broadcastTo S16x512x128 v17 broadcasts_S16x512x1_S16x512x128)

/-- Per batch row, the table of inner products of the normalised rows. -/
def kcos (q : Vec F S16x16x128 .f32) (k : Vec F S16x512x128 .f32) : FVec F S16x16x512 .f32 :=
  matmul dot_S16x16x128_S16x512x128_S16x16x512_2_2_1_1_0_0 (some .fp32) (knrmQ q) (knrmK k) (constant S16x16x512 .f32 0x00000000#32)

/-- One histogram bin of a block. -/
def kfeat (μ σ : BitVec 32) (M : FVec F S16x16x512 .f32) : FVec F S16x1 .f32 :=
  have d : FVec F S16x16x512 .f32 := subf M (broadcast S16x16x512 (Scalar.ofBits .f32 μ))
  have e : FVec F S16x16x512 .f32 :=
    exp (divf (mulf (broadcast S16x16x512 (Scalar.ofBits .f32 0xBF000000#32)) (mulf d d)) (broadcast S16x16x512 (Scalar.ofBits .f32 σ)))
  have r : FVec F S16x16 .f32 := log1p (multiReduction .add [2] S16x16 e 0x00000000#32 reduces_S16x16x512_S16x16 (.inl rfl) rfl)
  shapeCast S16x1 (multiReduction .add [1] S16 r 0x00000000#32 reduces_S16x16_S16 (.inl rfl) rfl) shapeCasts_S16_S16x1

/-- The 21 bins side by side. -/
def khist (M : FVec F S16x16x512 .f32) : FVec F S16x21 .f32 :=
  concatenate S16x21 1 [⟨S16x1, kfeat 0xBF733333#32 0x3C23D70A#32 M⟩, ⟨S16x1, kfeat 0xBF59999A#32 0x3C23D70A#32 M⟩, ⟨S16x1, kfeat 0xBF400000#32 0x3C23D70A#32 M⟩, ⟨S16x1, kfeat 0xBF266666#32 0x3C23D70A#32 M⟩, ⟨S16x1, kfeat 0xBF0CCCCD#32 0x3C23D70A#32 M⟩, ⟨S16x1, kfeat 0xBEE66666#32 0x3C23D70A#32 M⟩, ⟨S16x1, kfeat 0xBEB33333#32 0x3C23D70A#32 M⟩, ⟨S16x1, kfeat 0xBE800000#32 0x3C23D70A#32 M⟩, ⟨S16x1, kfeat 0xBE19999A#32 0x3C23D70A#32 M⟩, ⟨S16x1, kfeat 0xBD4CCCCD#32 0x3C23D70A#32 M⟩, ⟨S16x1, kfeat 0x3D4CCCCD#32 0x3C23D70A#32 M⟩, ⟨S16x1, kfeat 0x3E19999A#32 0x3C23D70A#32 M⟩, ⟨S16x1, kfeat 0x3E800000#32 0x3C23D70A#32 M⟩, ⟨S16x1, kfeat 0x3EB33333#32 0x3C23D70A#32 M⟩, ⟨S16x1, kfeat 0x3EE66666#32 0x3C23D70A#32 M⟩, ⟨S16x1, kfeat 0x3F0CCCCD#32 0x3C23D70A#32 M⟩, ⟨S16x1, kfeat 0x3F266666#32 0x3C23D70A#32 M⟩, ⟨S16x1, kfeat 0x3F400000#32 0x3C23D70A#32 M⟩, ⟨S16x1, kfeat 0x3F59999A#32 0x3C23D70A#32 M⟩, ⟨S16x1, kfeat 0x3F733333#32 0x3C23D70A#32 M⟩, ⟨S16x1, kfeat 0x3F800000#32 0x358637BD#32 M⟩]
    concatenates_S16x1_S16x1_S16x1_S16x1_S16x1_S16x1_S16x1_S16x1_S16x1_S16x1_S16x1_S16x1_S16x1_S16x1_S16x1_S16x1_S16x1_S16x1_S16x1_S16x1_S16x1_S16x21_d1

def klin1 (h : FVec F S16x21 .f32) (W1 : Vec F S21x10 .f32) (b1 : Vec F S10 .f32) : FVec F S16x10 .f32 :=
  maximumf
    (addf (matmul dot_S16x21_S21x10_S16x10_1_0_0_1_n_n none h W1 (constant S16x10 .f32 0x00000000#32))
      (broadcastTo S16x10 (shapeCast S1x10 b1 shapeCasts_S10_S1x10) broadcasts_S1x10_S16x10))
    (broadcast S16x10 (Scalar.ofBits .f32 0x00000000#32))

def klin2pre (h : FVec F S16x10 .f32) (W2 : Vec F S10x5 .f32) (b2 : Vec F S5 .f32) : FVec F S16x5 .f32 :=
  addf (matmul dot_S16x10_S10x5_S16x5_1_0_0_1_n_n none h W2 (constant S16x5 .f32 0x00000000#32))
    (broadcastTo S16x5 (shapeCast S1x5 b2 shapeCasts_S5_S1x5) broadcasts_S1x5_S16x5)

def klin2 (h : FVec F S16x10 .f32) (W2 : Vec F S10x5 .f32) (b2 : Vec F S5 .f32) : FVec F S16x5 .f32 :=
  maximumf (klin2pre h W2 b2) (broadcast S16x5 (Scalar.ofBits .f32 0x00000000#32))

def klin3 (h : FVec F S16x5 .f32) (W3 : Vec F S5x1 .f32) (b3 : Vec F S1 .f32) : FVec F S16x1 .f32 :=
  addf (matmul dot_S16x5_S5x1_S16x1_1_0_0_1_n_n none h W3 (constant S16x1 .f32 0x00000000#32))
    (broadcastTo S16x1 (shapeCast S1x1 b3 shapeCasts_S1_S1x1) broadcasts_S1x1_S16x1)

def kpred (q : Vec F S16x16x128 .f32) (k : Vec F S16x512x128 .f32) (W1 : Vec F S21x10 .f32) (b1 : Vec F S10 .f32)
    (W2 : Vec F S10x5 .f32) (b2 : Vec F S5 .f32) (W3 : Vec F S5x1 .f32) (b3 : Vec F S1 .f32) : FVec F S16x1 .f32 :=
  klin3 (klin2 (klin1 (khist (kcos q k)) W1 b1) W2 b2) W3 b3

/-- The stored column: the logistic function of the difference of the two score columns. -/
def kout (q1 : Vec F S16x16x128 .f32) (k1 : Vec F S16x512x128 .f32) (q2 : Vec F S16x16x128 .f32) (k2 : Vec F S16x512x128 .f32)
    (W1 : Vec F S21x10 .f32) (b1 : Vec F S10 .f32) (W2 : Vec F S10x5 .f32) (b2 : Vec F S5 .f32) (W3 : Vec F S5x1 .f32)
    (b3 : Vec F S1 .f32) : FVec F S16x1 .f32 :=
  logistic (subf (kpred q1 k1 W1 b1 W2 b2 W3 b3) (kpred q2 k2 W1 b1 W2 b2 W3 b3))

/-- The stored value is that composition of the loaded blocks, by definition. -/
theorem out0_10_eq (x0 : Vec F S16x16x128 .f32) (x1 : Vec F S16x512x128 .f32) (x2 : Vec F S16x16x128 .f32)
    (x3 : Vec F S16x512x128 .f32) (x4 : Vec F S21x10 .f32) (x5 : Vec F S10 .f32) (x6 : Vec F S10x5 .f32)
    (x7 : Vec F S5 .f32) (x8 : Vec F S5x1 .f32) (x9 : Vec F S1 .f32) :
    out0_10 x0 x1 x2 x3 x4 x5 x6 x7 x8 x9
      = View.canon [⟨r0_8, kout (View.ld x0 r0_0) (View.ld x1 r0_1) (View.ld x2 r0_0) (View.ld x3 r0_1) (View.ld x4 r0_2)
          (View.ld x5 r0_3) (View.ld x6 r0_4) (View.ld x7 r0_5) (View.ld x8 r0_6) (View.ld x9 r0_7)⟩] := rfl

end Chains

section Steps

variable {α : Type}

/-- A trailing unit axis does not move an entry. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A sum along the last of three axes, at `(i, j)`: the sum over the last coordinate. -/
theorem sum_axis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => exact Fin.ext rfl
  | ⟨1, _⟩ => exact Fin.ext rfl

end Steps

theorem lhs_cos_0 (i : S16x16x512.Idx) (q : dot_S16x16x128_S16x512x128_S16x16x512_2_2_1_1_0_0.contr.Idx) : (dot_S16x16x128_S16x512x128_S16x16x512_2_2_1_1_0_0.lhsIdx i q 0).val = (i 0).val := by
  unfold DotDims.lhsIdx
  rw [dif_pos (show (0 : Fin S16x16x128.rank) ∈ dot_S16x16x128_S16x512x128_S16x16x512_2_2_1_1_0_0.lhsBatch by decide)]
  rfl
theorem lhs_cos_1 (i : S16x16x512.Idx) (q : dot_S16x16x128_S16x512x128_S16x16x512_2_2_1_1_0_0.contr.Idx) : (dot_S16x16x128_S16x512x128_S16x16x512_2_2_1_1_0_0.lhsIdx i q 1).val = (i 1).val := by
  unfold DotDims.lhsIdx
  rw [dif_neg (show ¬(1 : Fin S16x16x128.rank) ∈ dot_S16x16x128_S16x512x128_S16x16x512_2_2_1_1_0_0.lhsBatch by decide), dif_pos (show (1 : Fin S16x16x128.rank) ∈ dot_S16x16x128_S16x512x128_S16x16x512_2_2_1_1_0_0.lhsNonContracting by decide)]
  rfl
theorem lhs_cos_2 (i : S16x16x512.Idx) (q : dot_S16x16x128_S16x512x128_S16x16x512_2_2_1_1_0_0.contr.Idx) : (dot_S16x16x128_S16x512x128_S16x16x512_2_2_1_1_0_0.lhsIdx i q 2).val = (q ⟨0, by decide⟩).val :=
  dot_S16x16x128_S16x512x128_S16x16x512_2_2_1_1_0_0.lhsIdx_val_of_single rfl i q
theorem rhs_cos_0 (i : S16x16x512.Idx) (q : dot_S16x16x128_S16x512x128_S16x16x512_2_2_1_1_0_0.contr.Idx) : (dot_S16x16x128_S16x512x128_S16x16x512_2_2_1_1_0_0.rhsIdx i q 0).val = (i 0).val := by
  unfold DotDims.rhsIdx
  rw [dif_pos (show (0 : Fin S16x512x128.rank) ∈ dot_S16x16x128_S16x512x128_S16x16x512_2_2_1_1_0_0.rhsBatch by decide)]
  rfl
theorem rhs_cos_1 (i : S16x16x512.Idx) (q : dot_S16x16x128_S16x512x128_S16x16x512_2_2_1_1_0_0.contr.Idx) : (dot_S16x16x128_S16x512x128_S16x16x512_2_2_1_1_0_0.rhsIdx i q 1).val = (i 2).val := by
  unfold DotDims.rhsIdx
  rw [dif_neg (show ¬(1 : Fin S16x512x128.rank) ∈ dot_S16x16x128_S16x512x128_S16x16x512_2_2_1_1_0_0.rhsBatch by decide), dif_pos (show (1 : Fin S16x512x128.rank) ∈ dot_S16x16x128_S16x512x128_S16x16x512_2_2_1_1_0_0.rhsNonContracting by decide)]
  rfl
theorem rhs_cos_2 (i : S16x16x512.Idx) (q : dot_S16x16x128_S16x512x128_S16x16x512_2_2_1_1_0_0.contr.Idx) : (dot_S16x16x128_S16x512x128_S16x16x512_2_2_1_1_0_0.rhsIdx i q 2).val = (q ⟨0, by decide⟩).val :=
  dot_S16x16x128_S16x512x128_S16x16x512_2_2_1_1_0_0.rhsIdx_val_of_single rfl i q

/-- The batched product from zero, at `(i, l, r)`: an inner product of two rows. -/
theorem mm_cos_apply (x : FVec Ideal S16x16x128 .f32) (y : FVec Ideal S16x512x128 .f32) (i l : Fin 16) (r : Fin 512) :
    matmul dot_S16x16x128_S16x512x128_S16x16x512_2_2_1_1_0_0 (some .fp32) x y (constant (F := Ideal) S16x16x512 .f32 0x00000000#32) (ix3 i l r)
      = ∑ d : Fin 128, x (ix3 i l d) * y (ix3 i r d) := by
  refine (Ideal.matmul_constant_zero_apply dot_S16x16x128_S16x512x128_S16x16x512_2_2_1_1_0_0 (some .fp32) x y (ix3 i l r)).trans ?_
  rw [← Equiv.sum_comp (contrEquiv1 dot_S16x16x128_S16x512x128_S16x16x512_2_2_1_1_0_0 128 rfl rfl).symm]
  refine Finset.sum_congr rfl fun k _ => ?_
  have hk := contrEquiv1_symm_val dot_S16x16x128_S16x512x128_S16x16x512_2_2_1_1_0_0 128 rfl rfl k
  have el : dot_S16x16x128_S16x512x128_S16x16x512_2_2_1_1_0_0.lhsIdx (ix3 i l r) ((contrEquiv1 dot_S16x16x128_S16x512x128_S16x16x512_2_2_1_1_0_0 128 rfl rfl).symm k) = ix3 i l k := funext fun a => Fin.ext (by
    match a with
    | ⟨0, _⟩ => exact lhs_cos_0 _ _
    | ⟨1, _⟩ => exact lhs_cos_1 _ _
    | ⟨2, _⟩ => exact (lhs_cos_2 _ _).trans hk)
  have er : dot_S16x16x128_S16x512x128_S16x16x512_2_2_1_1_0_0.rhsIdx (ix3 i l r) ((contrEquiv1 dot_S16x16x128_S16x512x128_S16x16x512_2_2_1_1_0_0 128 rfl rfl).symm k) = ix3 i r k := funext fun a => Fin.ext (by
    match a with
    | ⟨0, _⟩ => exact rhs_cos_0 _ _
    | ⟨1, _⟩ => exact rhs_cos_1 _ _
    | ⟨2, _⟩ => exact (rhs_cos_2 _ _).trans hk)
  rw [el, er]

/-- A product accumulated from zero is the host's product of the same operands: one sum over the contracted axis. -/
theorem matmul_zero_eq_dot {sl sr so : Shape} (d : DotDims sl sr so) (p p' : Option ContractPrecision)
    (x : FVec Ideal sl .f32) (y : FVec Ideal sr .f32) (j : so.Idx) :
    matmul d p x y (constant (F := Ideal) so .f32 0x00000000#32) j = Host.dotGeneral d p' x y j :=
  (Ideal.matmul_constant_zero_apply d p x y j).trans (Ideal.dotGeneral_apply d p' .single x y j).symm

theorem mm_l1_apply (x : FVec Ideal S16x21 .f32) (y : FVec Ideal S21x10 .f32) (i : Fin 16) (j : Fin 10) :
    matmul dot_S16x21_S21x10_S16x10_1_0_0_1_n_n none x y (constant (F := Ideal) S16x10 .f32 0x00000000#32) (ix2 i j)
      = ∑ k : Fin 21, x (ix2 i k) * y (ix2 k j) :=
  (matmul_zero_eq_dot _ none none x y _).trans (StackMember.dotGeneral_plain_apply none x y i j)

theorem mm_l2_apply (x : FVec Ideal S16x10 .f32) (y : FVec Ideal S10x5 .f32) (i : Fin 16) (j : Fin 5) :
    matmul dot_S16x10_S10x5_S16x5_1_0_0_1_n_n none x y (constant (F := Ideal) S16x5 .f32 0x00000000#32) (ix2 i j)
      = ∑ k : Fin 10, x (ix2 i k) * y (ix2 k j) :=
  (matmul_zero_eq_dot _ none none x y _).trans (StackMember.dotGeneral_plain_apply none x y i j)

theorem mm_l3_apply (x : FVec Ideal S16x5 .f32) (y : FVec Ideal S5x1 .f32) (i : Fin 16) (j : Fin 1) :
    matmul dot_S16x5_S5x1_S16x1_1_0_0_1_n_n none x y (constant (F := Ideal) S16x1 .f32 0x00000000#32) (ix2 i j)
      = ∑ k : Fin 5, x (ix2 i k) * y (ix2 k j) :=
  (matmul_zero_eq_dot _ none none x y _).trans (StackMember.dotGeneral_plain_apply none x y i j)

/-- The normalisation of a `(16, L, 128)` block at `(i, l, d)`. -/
theorem nrm_chain_apply {L : ℕ} (v : FVec Ideal ⟨3, ![16, L, 128]⟩ .f32)
    (h1 : (⟨3, ![16, L, 128]⟩ : Shape).ShapeCasts ⟨3, ![16, L, 128]⟩)
    (h2 : (⟨3, ![16, L, 128]⟩ : Shape).Reduces [2] ⟨2, ![16, L]⟩) (hφ : FKind.Formats .f32)
    (hacc : (0x00000000#32 : BitVec 32) = 0x00000000#32)
    (h3 : (⟨2, ![16, L]⟩ : Shape).ShapeCasts ⟨3, ![16, L, 1]⟩)
    (h4 : (⟨3, ![16, L, 1]⟩ : Shape).Broadcasts ⟨3, ![16, L, 128]⟩) (i : Fin 16) (l : Fin L) (d : Fin 128) :
    divf (shapeCast ⟨3, ![16, L, 128]⟩ v h1)
        (broadcastTo ⟨3, ![16, L, 128]⟩
          (maximumf
            (sqrt (shapeCast ⟨3, ![16, L, 1]⟩
              (multiReduction .add [2] ⟨2, ![16, L]⟩
                (mulf (shapeCast ⟨3, ![16, L, 128]⟩ v h1) (shapeCast ⟨3, ![16, L, 128]⟩ v h1)) 0x00000000#32 h2 hφ hacc) h3))
            (broadcast ⟨3, ![16, L, 1]⟩ (Scalar.ofBits .f32 0x2B8CBCCC#32))) h4) (ix3 i l d)
      = Cert.Spec.nrm (fun l d => v (ix3 i l d)) l d := by
  rw [shapeCast_self]
  unfold Cert.Spec.nrm
  show Ideal.div (v (ix3 i l d)) _ = _
  refine congrArg (Ideal.div (v (ix3 i l d))) ?_
  refine (broadcastTo_ab1_abc_apply _ h4 i l d).trans ?_
  show max (Ideal.sqrt _) (Ideal.ofBits .f32 0x2B8CBCCC#32) = _
  refine congrArg (fun z => max (Ideal.sqrt z) (Ideal.ofBits .f32 0x2B8CBCCC#32)) ?_
  refine (shapeCast_ab_ab1_apply _ h3 i l (0 : Fin 1)).trans ?_
  exact sum_axis2_apply _ h2 hφ hacc i l

theorem knrmQ_apply (q : Vec Ideal S16x16x128 .f32) (i l : Fin 16) (d : Fin 128) :
    knrmQ q (ix3 i l d) = Cert.Spec.nrm (fun l d => q (ix3 i l d)) l d :=
  nrm_chain_apply (L := 16) q _ _ _ _ _ _ i l d

theorem knrmK_apply (k : Vec Ideal S16x512x128 .f32) (i : Fin 16) (r : Fin 512) (d : Fin 128) :
    knrmK k (ix3 i r d) = Cert.Spec.nrm (fun r d => k (ix3 i r d)) r d :=
  nrm_chain_apply (L := 512) k _ _ _ _ _ _ i r d

theorem kcos_apply (q : Vec Ideal S16x16x128 .f32) (k : Vec Ideal S16x512x128 .f32) (i l : Fin 16) (r : Fin 512) :
    kcos q k (ix3 i l r) = Cert.Spec.cosm (fun l d => q (ix3 i l d)) (fun r d => k (ix3 i r d)) l r := by
  unfold kcos Cert.Spec.cosm
  refine (mm_cos_apply (knrmQ q) (knrmK k) i l r).trans ?_
  refine Finset.sum_congr rfl fun d _ => ?_
  rw [knrmQ_apply, knrmK_apply]

theorem kfeat_apply (μ σ : BitVec 32) (M : FVec Ideal S16x16x512 .f32) (i : Fin 16) (u : Fin 1) :
    kfeat μ σ M (ix2 i u) = Cert.Spec.feat μ σ (fun l r => M (ix3 i l r)) := by
  unfold kfeat Cert.Spec.feat
  refine (shapeCast_a_a1_apply _ _ i u).trans ?_
  refine (sum_axis1_apply _ _ _ _ i).trans ?_
  refine Finset.sum_congr rfl fun l _ => ?_
  show Ideal.log1p _ = _
  refine congrArg Ideal.log1p ?_
  exact sum_axis2_apply _ _ _ _ i l

theorem khist_apply (M : FVec Ideal S16x16x512 .f32) (i : Fin 16) (j : Fin 21) :
    khist M (ix2 i j) = Cert.Spec.feats (fun l r => M (ix3 i l r)) j := by
  unfold Cert.Spec.feats
  rw [← kfeat_apply (Cert.Spec.mus j) (Cert.Spec.sgs j) M i (0 : Fin 1)]
  show concatenate S16x21 1 (List.ofFn fun n : Fin 21 =>
      (⟨S16x1, kfeat (Cert.Spec.mus n) (Cert.Spec.sgs n) M⟩ : (s : Shape) × (s.Idx → Ideal .f32))) _ (ix2 i j) = _
  refine concatenate_ofFn_unit_apply (1 : Fin S16x21.rank) (fun n : Fin 21 => kfeat (Cert.Spec.mus n) (Cert.Spec.sgs n) M) _
    rfl rfl (ix2 i j) j rfl (ix2 i (0 : Fin 1)) fun b hb => ?_
  match b with
  | ⟨0, _⟩ => rfl
  | ⟨1, _⟩ => exact absurd rfl hb

theorem klin1_apply (h : FVec Ideal S16x21 .f32) (W1 : Vec Ideal S21x10 .f32) (b1 : Vec Ideal S10 .f32) (i : Fin 16) (j : Fin 10) :
    klin1 h W1 b1 (ix2 i j)
      = Cert.Spec.lin1 (fun a b => W1 (ix2 a b)) (fun a => b1 (ix1 a)) (fun a => h (ix2 i a)) j := by
  unfold klin1 Cert.Spec.lin1
  show max (_ + _) (Ideal.ofBits .f32 0x00000000#32) = _
  rw [Ideal.ofBits_zero_f32]
  refine congrArg (fun z => max z 0) (congrArg₂ (· + ·) (mm_l1_apply h W1 i j) ?_)
  exact (broadcastTo_1b_ab_apply _ _ i j).trans (shapeCast_a_1a_apply b1 _ (0 : Fin 1) j)

theorem klin2_apply (h : FVec Ideal S16x10 .f32) (W2 : Vec Ideal S10x5 .f32) (b2 : Vec Ideal S5 .f32) (i : Fin 16) (j : Fin 5) :
    klin2 h W2 b2 (ix2 i j)
      = Cert.Spec.lin2 (fun a b => W2 (ix2 a b)) (fun a => b2 (ix1 a)) (fun a => h (ix2 i a)) j := by
  unfold klin2 klin2pre Cert.Spec.lin2
  show max (_ + _) (Ideal.ofBits .f32 0x00000000#32) = _
  rw [Ideal.ofBits_zero_f32]
  refine congrArg (fun z => max z 0) (congrArg₂ (· + ·) (mm_l2_apply h W2 i j) ?_)
  exact (broadcastTo_1b_ab_apply _ _ i j).trans (shapeCast_a_1a_apply b2 _ (0 : Fin 1) j)

theorem klin3_apply (h : FVec Ideal S16x5 .f32) (W3 : Vec Ideal S5x1 .f32) (b3 : Vec Ideal S1 .f32) (i : Fin 16) :
    klin3 h W3 b3 (ix2 i (0 : Fin 1))
      = Cert.Spec.lin3 (fun a => W3 (ix2 a (0 : Fin 1))) (b3 (ix1 (0 : Fin 1))) (fun a => h (ix2 i a)) := by
  unfold klin3 Cert.Spec.lin3
  show _ + _ = _
  refine congrArg₂ (· + ·) (mm_l3_apply h W3 i (0 : Fin 1)) ?_
  exact (broadcastTo_1b_ab_apply _ _ i (0 : Fin 1)).trans (shapeCast_a_1a_apply b3 _ (0 : Fin 1) (0 : Fin 1))

theorem kpred_apply (q : Vec Ideal S16x16x128 .f32) (k : Vec Ideal S16x512x128 .f32) (W1 : Vec Ideal S21x10 .f32)
    (b1 : Vec Ideal S10 .f32) (W2 : Vec Ideal S10x5 .f32) (b2 : Vec Ideal S5 .f32) (W3 : Vec Ideal S5x1 .f32)
    (b3 : Vec Ideal S1 .f32) (i : Fin 16) :
    kpred q k W1 b1 W2 b2 W3 b3 (ix2 i (0 : Fin 1))
      = Cert.Spec.pred (fun l d => q (ix3 i l d)) (fun r d => k (ix3 i r d)) (fun a b => W1 (ix2 a b)) (fun a => b1 (ix1 a))
          (fun a b => W2 (ix2 a b)) (fun a => b2 (ix1 a)) (fun a => W3 (ix2 a (0 : Fin 1))) (b3 (ix1 (0 : Fin 1))) := by
  unfold kpred Cert.Spec.pred
  rw [klin3_apply]
  refine congrArg (Cert.Spec.lin3 _ _) (funext fun a5 => ?_)
  rw [klin2_apply]
  refine congrArg (fun z => Cert.Spec.lin2 _ _ z a5) (funext fun a10 => ?_)
  rw [klin1_apply]
  refine congrArg (fun z => Cert.Spec.lin1 _ _ z a10) (funext fun a21 => ?_)
  rw [khist_apply]
  refine congrArg (fun z => Cert.Spec.feats z a21) (funext fun l => funext fun r => ?_)
  exact kcos_apply q k i l r

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Row `i` of the stored block is the specification's value of row `i` of the loaded blocks. -/
theorem out0_10_apply (x0 : Vec Ideal S16x16x128 .f32) (x1 : Vec Ideal S16x512x128 .f32) (x2 : Vec Ideal S16x16x128 .f32)
    (x3 : Vec Ideal S16x512x128 .f32) (x4 : Vec Ideal S21x10 .f32) (x5 : Vec Ideal S10 .f32) (x6 : Vec Ideal S10x5 .f32)
    (x7 : Vec Ideal S5 .f32) (x8 : Vec Ideal S5x1 .f32) (x9 : Vec Ideal S1 .f32) (i : Fin 16) :
    (out0_10 x0 x1 x2 x3 x4 x5 x6 x7 x8 x9 (ix2 i (0 : Fin 1)) : EReal)
      = Cert.Spec.out (fun l d => x0 (ix3 i l d)) (fun r d => x1 (ix3 i r d)) (fun l d => x2 (ix3 i l d)) (fun r d => x3 (ix3 i r d))
          (fun a b => x4 (ix2 a b)) (fun a => x5 (ix1 a)) (fun a b => x6 (ix2 a b)) (fun a => x7 (ix1 a))
          (fun a => x8 (ix2 a (0 : Fin 1))) (x9 (ix1 (0 : Fin 1))) := by
  rw [out0_10_eq, View.canon_unit_zero hz2]
  have e0 : View.ld x0 r0_0 = x0 := View.ld_unit_zero hz3 _ x0
  have e1 : View.ld x1 r0_1 = x1 := View.ld_unit_zero hz3 _ x1
  have e2 : View.ld x2 r0_0 = x2 := View.ld_unit_zero hz3 _ x2
  have e3 : View.ld x3 r0_1 = x3 := View.ld_unit_zero hz3 _ x3
  have e4 : View.ld x4 r0_2 = x4 := View.ld_unit_zero hz2 _ x4
  have e5 : View.ld x5 r0_3 = x5 := View.ld_unit_zero hz1 _ x5
  have e6 : View.ld x6 r0_4 = x6 := View.ld_unit_zero hz2 _ x6
  have e7 : View.ld x7 r0_5 = x7 := View.ld_unit_zero hz1 _ x7
  have e8 : View.ld x8 r0_6 = x8 := View.ld_unit_zero hz2 _ x8
  have e9 : View.ld x9 r0_7 = x9 := View.ld_unit_zero hz1 _ x9
  rw [e0, e1, e2, e3, e4, e5, e6, e7, e8, e9]
  unfold kout Cert.Spec.out
  show Ideal.logistic (kpred x0 x1 x4 x5 x6 x7 x8 x9 (ix2 i (0 : Fin 1)) - kpred x2 x3 x4 x5 x6 x7 x8 x9 (ix2 i (0 : Fin 1))) = _
  rw [kpred_apply, kpred_apply]

end Cert.KSide

end
-- ==== Proof.PreDecode.lean ====
/-
  The four looked-up embedding arrays as the kernel's region finds them. The kernel's program looks rows up with a fill:
  an index outside `[0, 100000)`, after a negative one has been counted from the table's end, yields a filled row. Under
  the precondition every index is in range, so no row is filled and each array is the plain lookup.
-/
import proofs.«417505_j37409165148283_1_alg».proof.Defs
import proofs.«417505_j37409165148283_1_alg».proof.Proof.Gen.KernelIdeal.Frame
import proofs.«417505_j37409165148283_1_alg».proof.Proof.Gen.Pre_finite_inputs
import Idealize.ShloMosaic.Lib.ValueIdx
import Idealize.ShloMosaic.Lib.ReduceAll
import Idealize.ShloMosaic.Lib.StableHlo.Predicate
import Idealize.ShloMosaic.Lib.StableHlo.Run

noncomputable section

namespace Cert.PreDecode

open Cert.KernelIdeal Cert.KernelIdeal.Gen Idealize.ShloMosaic Idealize.ShloMosaic.TcCoe Idealize.SL.Sem Idealize.ShloMosaic.ValueIdx

def gath16 {F : FTy → Type} [FloatOps F] (emb : FVec F S100000x128 .f32) (q : IVec S512x16 32) : FVec F S512x16x128 .f32 :=
  Host.gather gather_S100000x128_S512x16x1_S512x16x128_2_0_n_n_0_2_1128 emb (broadcastInDim S512x16x1 ![0, 1] bcast_S512x16_S512x16x1_0_1 (select (cmpi .slt q (broadcastInDim S512x16 ![] bcast_S_S512x16 (constantI S_ 32 0#32))) (addi q (broadcastInDim S512x16 ![] bcast_S_S512x16 (constantI S_ 32 100000#32))) q))

def gath512 {F : FTy → Type} [FloatOps F] (emb : FVec F S100000x128 .f32) (q : IVec S512x512 32) : FVec F S512x512x128 .f32 :=
  Host.gather gather_S100000x128_S512x512x1_S512x512x128_2_0_n_n_0_2_1128 emb (broadcastInDim S512x512x1 ![0, 1] bcast_S512x512_S512x512x1_0_1 (select (cmpi .slt q (broadcastInDim S512x512 ![] bcast_S_S512x512 (constantI S_ 32 0#32))) (addi q (broadcastInDim S512x512 ![] bcast_S_S512x512 (constantI S_ 32 100000#32))) q))

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- An `and`-reduction from 1 of an array of 1s is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

theorem toInt_0 : (0#32 : BitVec 32).toInt = 0 := by decide
theorem toInt_100000 : (100000#32 : BitVec 32).toInt = 100000 := by decide
theorem toInt_99999 : (99999#32 : BitVec 32).toInt = 99999 := by decide

/-- A word in `[0, 100000)` is not negative, so it is left as it is and both range tests give 1. -/
theorem wrap_in_range (w : BitVec 32) (h0 : IntOp.cmpi .sge w 0#32 = 1#1) (h1 : IntOp.cmpi .slt w 100000#32 = 1#1) :
    IntOp.andi (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have g0 : (0 : Int) ≤ w.toInt := by
    unfold IntOp.cmpi at h0
    rw [StableHlo.Predicate.ofBool_eq_one_iff] at h0
    simp only [BitVec.sle, decide_eq_true_eq, toInt_0] at h0
    exact h0
  have g1 : w.toInt < 100000 := by
    unfold IntOp.cmpi at h1
    rw [StableHlo.Predicate.ofBool_eq_one_iff] at h1
    simp only [BitVec.slt, decide_eq_true_eq, toInt_100000] at h1
    exact h1
  have hneg : IntOp.cmpi .slt w 0#32 = 0#1 := by
    refine eq_zero_of_ne_one fun hc => ?_
    unfold IntOp.cmpi at hc
    rw [StableHlo.Predicate.ofBool_eq_one_iff] at hc
    simp only [BitVec.slt, decide_eq_true_eq, toInt_0] at hc
    omega
  have hle : IntOp.cmpi .sle w 99999#32 = 1#1 := by
    unfold IntOp.cmpi
    rw [StableHlo.Predicate.ofBool_eq_one_iff]
    simp only [BitVec.sle, decide_eq_true_eq, toInt_99999]
    omega
  rw [hneg, select_zero, IntOp.andi_eq_one]
  exact ⟨h0, hle⟩

abbrev wrap16 (q : IVec S512x16 32) : IVec S512x16x1 32 :=
  broadcastInDim S512x16x1 ![0, 1] bcast_S512x16_S512x16x1_0_1 (select (cmpi .slt q (broadcastInDim S512x16 ![] bcast_S_S512x16 (constantI S_ 32 0#32))) (addi q (broadcastInDim S512x16 ![] bcast_S_S512x16 (constantI S_ 32 100000#32))) q)

abbrev mask16 (q : IVec S512x16 32) : IVec S512x16 1 :=
  Host.reduce IntOp.andi
    (andi (cmpi .sge (wrap16 q) (broadcastInDim S512x16x1 ![] bcast_S_S512x16x1 (constantI S_ 32 0#32)))
      (cmpi .sle (wrap16 q) (broadcastInDim S512x16x1 ![0, 1, 2] bcast_S1x1x1_S512x16x1_0_1_2 (broadcastInDim S1x1x1 ![2] bcast_S1_S1x1x1_2 (constantI S1 32 99999#32)))))
    (constantI S_ 1 1#1) reducesTo_S512x16x1_S512x16_d2 h_S_

theorem mask16_one (q : IVec S512x16 32)
    (hge : ∀ i, IntOp.cmpi .sge (q i) 0#32 = 1#1) (hlt : ∀ i, IntOp.cmpi .slt (q i) 100000#32 = 1#1) (j : S512x16.Idx) :
    mask16 q j = 1#1 :=
  reduce_andi_ones _ _ _ _ rfl (fun i => wrap_in_range _ (hge _) (hlt _)) j

/-- With every index in range the mask is 1 everywhere and the select keeps every looked-up row. -/
theorem fill16 (emb : FVec Ideal S100000x128 .f32) (q : IVec S512x16 32)
    (hge : ∀ i, IntOp.cmpi .sge (q i) 0#32 = 1#1) (hlt : ∀ i, IntOp.cmpi .slt (q i) 100000#32 = 1#1) :
    select (broadcastInDim S512x16x128 ![0, 1] bcast_S512x16_S512x16x128_0_1 (mask16 q))
      (Host.gather gather_S100000x128_S512x16x1_S512x16x128_2_0_n_n_0_2_1128 emb (wrap16 q))
      (broadcastInDim S512x16x128 ![] bcast_S_S512x16x128 (constant (F := Ideal) S_ .f32 0x7FC00000#32))
    = gath16 (F := Ideal) emb q := by
  funext j
  rw [select_apply]
  have hmask : broadcastInDim S512x16x128 ![0, 1] bcast_S512x16_S512x16x128_0_1 (mask16 q) j = 1#1 := by
    unfold broadcastInDim
    exact mask16_one q hge hlt _
  rw [hmask, select_one]
  rfl

abbrev wrap512 (q : IVec S512x512 32) : IVec S512x512x1 32 :=
  broadcastInDim S512x512x1 ![0, 1] bcast_S512x512_S512x512x1_0_1 (select (cmpi .slt q (broadcastInDim S512x512 ![] bcast_S_S512x512 (constantI S_ 32 0#32))) (addi q (broadcastInDim S512x512 ![] bcast_S_S512x512 (constantI S_ 32 100000#32))) q)

abbrev mask512 (q : IVec S512x512 32) : IVec S512x512 1 :=
  Host.reduce IntOp.andi
    (andi (cmpi .sge (wrap512 q) (broadcastInDim S512x512x1 ![] bcast_S_S512x512x1 (constantI S_ 32 0#32)))
      (cmpi .sle (wrap512 q) (broadcastInDim S512x512x1 ![0, 1, 2] bcast_S1x1x1_S512x512x1_0_1_2 (broadcastInDim S1x1x1 ![2] bcast_S1_S1x1x1_2 (constantI S1 32 99999#32)))))
    (constantI S_ 1 1#1) reducesTo_S512x512x1_S512x512_d2 h_S_

theorem mask512_one (q : IVec S512x512 32)
    (hge : ∀ i, IntOp.cmpi .sge (q i) 0#32 = 1#1) (hlt : ∀ i, IntOp.cmpi .slt (q i) 100000#32 = 1#1) (j : S512x512.Idx) :
    mask512 q j = 1#1 :=
  reduce_andi_ones _ _ _ _ rfl (fun i => wrap_in_range _ (hge _) (hlt _)) j

theorem fill512 (emb : FVec Ideal S100000x128 .f32) (q : IVec S512x512 32)
    (hge : ∀ i, IntOp.cmpi .sge (q i) 0#32 = 1#1) (hlt : ∀ i, IntOp.cmpi .slt (q i) 100000#32 = 1#1) :
    select (broadcastInDim S512x512x128 ![0, 1] bcast_S512x512_S512x512x128_0_1 (mask512 q))
      (Host.gather gather_S100000x128_S512x512x1_S512x512x128_2_0_n_n_0_2_1128 emb (wrap512 q))
      (broadcastInDim S512x512x128 ![] bcast_S_S512x512x128 (constant (F := Ideal) S_ .f32 0x7FC00000#32))
    = gath512 (F := Ideal) emb q := by
  funext j
  rw [select_apply]
  have hmask : broadcastInDim S512x512x128 ![0, 1] bcast_S512x512_S512x512x128_0_1 (mask512 q) j = 1#1 := by
    unfold broadcastInDim
    exact mask512_one q hge hlt _
  rw [hmask, select_one]
  rfl

variable (m : (ℓ : Loc nD τ sig) → Buf (Elt Ideal) ℓ)

instance : Subsingleton S_.Idx := ⟨fun a b => funext fun d => d.elim0⟩

/-- The precondition read back: every word of the four index arrays is in `[0, 100000)`. -/
theorem pre_words (c : Dev nD) (h : Cert.Pre_KernelIdeal m) :
    ((∀ i, IntOp.cmpi .sge ((m ((c.tc : Thread nD τ).loc main_arg0) : IVec S512x16 32) i) 0#32 = 1#1)
      ∧ ∀ i, IntOp.cmpi .slt ((m ((c.tc : Thread nD τ).loc main_arg0) : IVec S512x16 32) i) 100000#32 = 1#1)
    ∧ ((∀ i, IntOp.cmpi .sge ((m ((c.tc : Thread nD τ).loc main_arg1) : IVec S512x512 32) i) 0#32 = 1#1)
      ∧ ∀ i, IntOp.cmpi .slt ((m ((c.tc : Thread nD τ).loc main_arg1) : IVec S512x512 32) i) 100000#32 = 1#1)
    ∧ ((∀ i, IntOp.cmpi .sge ((m ((c.tc : Thread nD τ).loc main_arg2) : IVec S512x16 32) i) 0#32 = 1#1)
      ∧ ∀ i, IntOp.cmpi .slt ((m ((c.tc : Thread nD τ).loc main_arg2) : IVec S512x16 32) i) 100000#32 = 1#1)
    ∧ ((∀ i, IntOp.cmpi .sge ((m ((c.tc : Thread nD τ).loc main_arg3) : IVec S512x512 32) i) 0#32 = 1#1)
      ∧ ∀ i, IntOp.cmpi .slt ((m ((c.tc : Thread nD τ).loc main_arg3) : IVec S512x512 32) i) 100000#32 = 1#1) := by
  have e := congrFun (h c) ix0
  dsimp only [Cert.Pre_finite_inputs.fn, Cert.Pre_finite_inputs.fn_part1, Cert.Pre_finite_inputs.fn_part2,
    Cert.Pre_finite_inputs.fn_part3] at e
  obtain ⟨e, h3lt⟩ := IntOp.andi_eq_one.1 e
  obtain ⟨e, h3ge⟩ := IntOp.andi_eq_one.1 e
  obtain ⟨e, h2lt⟩ := IntOp.andi_eq_one.1 e
  obtain ⟨e, h2ge⟩ := IntOp.andi_eq_one.1 e
  obtain ⟨e, h1lt⟩ := IntOp.andi_eq_one.1 e
  obtain ⟨e, h1ge⟩ := IntOp.andi_eq_one.1 e
  obtain ⟨e, h0lt⟩ := IntOp.andi_eq_one.1 e
  obtain ⟨-, h0ge⟩ := IntOp.andi_eq_one.1 e
  exact ⟨⟨fun i => Host.reduce_andi_all _ _ _ _ _ h0ge i, fun i => Host.reduce_andi_all _ _ _ _ _ h0lt i⟩,
    ⟨fun i => Host.reduce_andi_all _ _ _ _ _ h1ge i, fun i => Host.reduce_andi_all _ _ _ _ _ h1lt i⟩,
    ⟨fun i => Host.reduce_andi_all _ _ _ _ _ h2ge i, fun i => Host.reduce_andi_all _ _ _ _ _ h2lt i⟩,
    ⟨fun i => Host.reduce_andi_all _ _ _ _ _ h3ge i, fun i => Host.reduce_andi_all _ _ _ _ _ h3lt i⟩⟩

/-- Under the precondition the first query's looked-up array is the plain lookup. -/
theorem V_main_v0 (c : Dev nD) (h : Cert.Pre_KernelIdeal m) :
    (V m c main_v0 : S512x16x128.Idx → EReal) = gath16 (F := Ideal) (m ((c.tc : Thread nD τ).loc main_arg4)) (m ((c.tc : Thread nD τ).loc main_arg0)) := by
  obtain ⟨hge, hlt⟩ := (pre_words m c h).1
  dsimp only [Gen.V]
  simp only [Gen.hostOps0, Gen.hostOps0_1, Gen.hostOps0_2, Gen.hostOps0_3, List.flatten_cons, List.flatten_nil, List.append_nil,
    List.cons_append, List.nil_append]
  after_results_simp
  simp only [StableHlo.TRef.ofBuf, StableHlo.TRef.toBuf, cast_eq]
  exact fill16 _ _ hge hlt

theorem V_main_v1 (c : Dev nD) (h : Cert.Pre_KernelIdeal m) :
    (V m c main_v1 : S512x512x128.Idx → EReal) = gath512 (F := Ideal) (m ((c.tc : Thread nD τ).loc main_arg4)) (m ((c.tc : Thread nD τ).loc main_arg1)) := by
  obtain ⟨hge, hlt⟩ := (pre_words m c h).2.1
  dsimp only [Gen.V]
  simp only [Gen.hostOps0, Gen.hostOps0_1, Gen.hostOps0_2, Gen.hostOps0_3, List.flatten_cons, List.flatten_nil, List.append_nil,
    List.cons_append, List.nil_append]
  after_results_simp
  simp only [StableHlo.TRef.ofBuf, StableHlo.TRef.toBuf, cast_eq]
  exact fill512 _ _ hge hlt

theorem V_main_v2 (c : Dev nD) (h : Cert.Pre_KernelIdeal m) :
    (V m c main_v2 : S512x16x128.Idx → EReal) = gath16 (F := Ideal) (m ((c.tc : Thread nD τ).loc main_arg4)) (m ((c.tc : Thread nD τ).loc main_arg2)) := by
  obtain ⟨hge, hlt⟩ := (pre_words m c h).2.2.1
  dsimp only [Gen.V]
  simp only [Gen.hostOps0, Gen.hostOps0_1, Gen.hostOps0_2, Gen.hostOps0_3, List.flatten_cons, List.flatten_nil, List.append_nil,
    List.cons_append, List.nil_append]
  after_results_simp
  simp only [StableHlo.TRef.ofBuf, StableHlo.TRef.toBuf, cast_eq]
  exact fill16 _ _ hge hlt

theorem V_main_v3 (c : Dev nD) (h : Cert.Pre_KernelIdeal m) :
    (V m c main_v3 : S512x512x128.Idx → EReal) = gath512 (F := Ideal) (m ((c.tc : Thread nD τ).loc main_arg4)) (m ((c.tc : Thread nD τ).loc main_arg3)) := by
  obtain ⟨hge, hlt⟩ := (pre_words m c h).2.2.2
  dsimp only [Gen.V]
  simp only [Gen.hostOps0, Gen.hostOps0_1, Gen.hostOps0_2, Gen.hostOps0_3, List.flatten_cons, List.flatten_nil, List.append_nil,
    List.cons_append, List.nil_append]
  after_results_simp
  simp only [StableHlo.TRef.ofBuf, StableHlo.TRef.toBuf, cast_eq]
  exact fill512 _ _ hge hlt

end Cert.PreDecode

end
-- ==== Proof.KBlocks.lean ====
/-
  The kernel's result array after the run, one batch row at a time. Grid point `t` works on batch rows
  `16 t … 16 t + 15`: its embedding blocks are those rows of the looked-up arrays, its weight blocks the whole weight
  arrays, and its 16-row output block is those rows of the result. The 32 blocks cover the 512 rows.
-/
import proofs.«417505_j37409165148283_1_alg».proof.Proof.Gen.KernelIdeal.Value
import proofs.«417505_j37409165148283_1_alg».proof.Proof.KSide
import proofs.«417505_j37409165148283_1_alg».proof.Proof.PreDecode

noncomputable section

namespace Cert.KBlocks

open Cert.KernelIdeal Cert.KernelIdeal.Gen Idealize.ShloMosaic Idealize.ShloMosaic.TcCoe Idealize.SL.Sem Idealize.ShloMosaic.ValueIdx
open Idealize.ShloMosaic.Pipeline (Dat)

def row (j : S512x1.Idx) : Fin 512 := ⟨(j 0).val, idx2_lt0 j⟩

/-- The result array as one function of the four looked-up arrays and the weights. -/
def G (E1 : S512x16x128.Idx → EReal) (D1 : S512x512x128.Idx → EReal) (E2 : S512x16x128.Idx → EReal) (D2 : S512x512x128.Idx → EReal)
    (W1 : S21x10.Idx → EReal) (b1 : S10.Idx → EReal) (W2 : S10x5.Idx → EReal) (b2 : S5.Idx → EReal)
    (W3 : S5x1.Idx → EReal) (b3 : S1.Idx → EReal) : S512x1.Idx → EReal := fun j =>
  Cert.Spec.out (fun l d => E1 (ix3 (row j) l d)) (fun r d => D1 (ix3 (row j) r d)) (fun l d => E2 (ix3 (row j) l d)) (fun r d => D2 (ix3 (row j) r d))
    (fun a b => W1 (ix2 a b)) (fun a => b1 (ix1 a)) (fun a b => W2 (ix2 a b)) (fun a => b2 (ix1 a))
    (fun a => W3 (ix2 a (0 : Fin 1))) (b3 (ix1 (0 : Fin 1)))

variable (m : (ℓ : Loc nD τ sig) → Buf (Elt Ideal) ℓ) (ρ : Dev nD → PrngReg)

theorem blk0 (c : Dev nD) (t : Fin cfg0.N) (y : S16x16x128.Idx) : iblk m c 0 t y = V m c main_v0 (((cfg0.win 0).blk t).view.emb y) := rfl
theorem blk1 (c : Dev nD) (t : Fin cfg0.N) (y : S16x512x128.Idx) : iblk m c 1 t y = V m c main_v1 (((cfg0.win 1).blk t).view.emb y) := rfl
theorem blk2 (c : Dev nD) (t : Fin cfg0.N) (y : S16x16x128.Idx) : iblk m c 2 t y = V m c main_v2 (((cfg0.win 2).blk t).view.emb y) := rfl
theorem blk3 (c : Dev nD) (t : Fin cfg0.N) (y : S16x512x128.Idx) : iblk m c 3 t y = V m c main_v3 (((cfg0.win 3).blk t).view.emb y) := rfl
theorem blk4 (c : Dev nD) (t : Fin cfg0.N) (y : S21x10.Idx) : iblk m c 4 t y = V m c main_arg5 (((cfg0.win 4).blk t).view.emb y) := rfl
theorem blk5 (c : Dev nD) (t : Fin cfg0.N) (y : S10.Idx) : iblk m c 5 t y = V m c main_arg6 (((cfg0.win 5).blk t).view.emb y) := rfl
theorem blk6 (c : Dev nD) (t : Fin cfg0.N) (y : S10x5.Idx) : iblk m c 6 t y = V m c main_arg7 (((cfg0.win 6).blk t).view.emb y) := rfl
theorem blk7 (c : Dev nD) (t : Fin cfg0.N) (y : S5.Idx) : iblk m c 7 t y = V m c main_arg8 (((cfg0.win 7).blk t).view.emb y) := rfl
theorem blk8 (c : Dev nD) (t : Fin cfg0.N) (y : S5x1.Idx) : iblk m c 8 t y = V m c main_arg9 (((cfg0.win 8).blk t).view.emb y) := rfl
theorem blk9 (c : Dev nD) (t : Fin cfg0.N) (y : S1.Idx) : iblk m c 9 t y = V m c main_arg10 (((cfg0.win 9).blk t).view.emb y) := rfl

/-- Where each window's block sits at grid point `t`, decided over the 32 points. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- What point `t` writes back is `G` of the arrays read through its output block. -/
theorem flushed_eq (c : Dev nD) (t : Fin cfg0.N) :
    (dats m 0 c).flushed 10 t = ((cfg0.win 10).blk t).view.read (Elt Ideal)
      (G (V m c main_v0) (V m c main_v1) (V m c main_v2) (V m c main_v3) (V m c main_arg5) (V m c main_arg6) (V m c main_arg7)
        (V m c main_arg8) (V m c main_arg9) (V m c main_arg10)) := by
  rw [Cert.KernelIdeal.Value.flushed10]
  funext y
  show out0_10 (iblk m c 0 t) (iblk m c 1 t) (iblk m c 2 t) (iblk m c 3 t) (iblk m c 4 t) (iblk m c 5 t) (iblk m c 6 t)
        (iblk m c 7 t) (iblk m c 8 t) (iblk m c 9 t) y
      = G (V m c main_v0) (V m c main_v1) (V m c main_v2) (V m c main_v3) (V m c main_arg5) (V m c main_arg6)
        (V m c main_arg7) (V m c main_arg8) (V m c main_arg9) (V m c main_arg10) (((cfg0.win 10).blk t).view.emb y)
  obtain ⟨i, rfl⟩ : ∃ i : Fin 16, y = ix2 i (0 : Fin 1) :=
    ⟨⟨((y : S16x1.Idx) 0).val, idx2_lt0 (y : S16x1.Idx)⟩, by
      funext a
      match a with
      | ⟨0, _⟩ => rfl
      | ⟨1, _⟩ => exact Subsingleton.elim (α := Fin 1) _ _⟩
  refine (Cert.KSide.out0_10_apply (iblk m c 0 t) (iblk m c 1 t) (iblk m c 2 t) (iblk m c 3 t) (iblk m c 4 t) (iblk m c 5 t)
    (iblk m c 6 t) (iblk m c 7 t) (iblk m c 8 t) (iblk m c 9 t) i).trans ?_
  obtain ⟨a00, a01, a02, a10, a11, a12, a20, a21, a22, a30, a31, a32, a40, a41, a50, a60, a61, a70, a80, a81, a90, o0, o1⟩ := idx_facts t
  have e0 : ∀ (l : Fin 16) (d : Fin 128), iblk m c 0 t (ix3 i l d) = V m c main_v0 (ix3 (row (((cfg0.win 10).blk t).view.emb (ix2 i (0 : Fin 1)))) l d) := by
    intro l d
    rw [blk0]
    refine congrArg (V m c main_v0) ?_
    funext a; apply Fin.ext
    match a with
    | ⟨0, _⟩ => show win0_0.index t (0 : Fin 3) * 16 + 1 * i.val = win0_10.index t (0 : Fin 2) * 16 + 1 * i.val; omega
    | ⟨1, _⟩ => show win0_0.index t (1 : Fin 3) * 16 + 1 * l.val = l.val; omega
    | ⟨2, _⟩ => show win0_0.index t (2 : Fin 3) * 128 + 1 * d.val = d.val; omega
  have e1 : ∀ (l : Fin 512) (d : Fin 128), iblk m c 1 t (ix3 i l d) = V m c main_v1 (ix3 (row (((cfg0.win 10).blk t).view.emb (ix2 i (0 : Fin 1)))) l d) := by
    intro l d
    rw [blk1]
    refine congrArg (V m c main_v1) ?_
    funext a; apply Fin.ext
    match a with
    | ⟨0, _⟩ => show win0_1.index t (0 : Fin 3) * 16 + 1 * i.val = win0_10.index t (0 : Fin 2) * 16 + 1 * i.val; omega
    | ⟨1, _⟩ => show win0_1.index t (1 : Fin 3) * 512 + 1 * l.val = l.val; omega
    | ⟨2, _⟩ => show win0_1.index t (2 : Fin 3) * 128 + 1 * d.val = d.val; omega
  have e2 : ∀ (l : Fin 16) (d : Fin 128), iblk m c 2 t (ix3 i l d) = V m c main_v2 (ix3 (row (((cfg0.win 10).blk t).view.emb (ix2 i (0 : Fin 1)))) l d) := by
    intro l d
    rw [blk2]
    refine congrArg (V m c main_v2) ?_
    funext a; apply Fin.ext
    match a with
    | ⟨0, _⟩ => show win0_2.index t (0 : Fin 3) * 16 + 1 * i.val = win0_10.index t (0 : Fin 2) * 16 + 1 * i.val; omega
    | ⟨1, _⟩ => show win0_2.index t (1 : Fin 3) * 16 + 1 * l.val = l.val; omega
    | ⟨2, _⟩ => show win0_2.index t (2 : Fin 3) * 128 + 1 * d.val = d.val; omega
  have e3 : ∀ (l : Fin 512) (d : Fin 128), iblk m c 3 t (ix3 i l d) = V m c main_v3 (ix3 (row (((cfg0.win 10).blk t).view.emb (ix2 i (0 : Fin 1)))) l d) := by
    intro l d
    rw [blk3]
    refine congrArg (V m c main_v3) ?_
    funext a; apply Fin.ext
    match a with
    | ⟨0, _⟩ => show win0_3.index t (0 : Fin 3) * 16 + 1 * i.val = win0_10.index t (0 : Fin 2) * 16 + 1 * i.val; omega
    | ⟨1, _⟩ => show win0_3.index t (1 : Fin 3) * 512 + 1 * l.val = l.val; omega
    | ⟨2, _⟩ => show win0_3.index t (2 : Fin 3) * 128 + 1 * d.val = d.val; omega
  have e4 : ∀ (a : Fin 21) (b : Fin 10), iblk m c 4 t (ix2 a b) = V m c main_arg5 (ix2 a b) := by
    intro a b
    rw [blk4]
    refine congrArg (V m c main_arg5) ?_
    funext a'; apply Fin.ext
    match a' with
    | ⟨0, _⟩ => show win0_4.index t (0 : Fin 2) * 21 + 1 * a.val = a.val; omega
    | ⟨1, _⟩ => show win0_4.index t (1 : Fin 2) * 10 + 1 * b.val = b.val; omega
  have e5 : ∀ (a : Fin 10), iblk m c 5 t (ix1 a) = V m c main_arg6 (ix1 a) := by
    intro a
    rw [blk5]
    refine congrArg (V m c main_arg6) ?_
    funext a'; apply Fin.ext
    match a' with
    | ⟨0, _⟩ => show win0_5.index t (0 : Fin 1) * 10 + 1 * a.val = a.val; omega
  have e6 : ∀ (a : Fin 10) (b : Fin 5), iblk m c 6 t (ix2 a b) = V m c main_arg7 (ix2 a b) := by
    intro a b
    rw [blk6]
    refine congrArg (V m c main_arg7) ?_
    funext a'; apply Fin.ext
    match a' with
    | ⟨0, _⟩ => show win0_6.index t (0 : Fin 2) * 10 + 1 * a.val = a.val; omega
    | ⟨1, _⟩ => show win0_6.index t (1 : Fin 2) * 5 + 1 * b.val = b.val; omega
  have e7 : ∀ (a : Fin 5), iblk m c 7 t (ix1 a) = V m c main_arg8 (ix1 a) := by
    intro a
    rw [blk7]
    refine congrArg (V m c main_arg8) ?_
    funext a'; apply Fin.ext
    match a' with
    | ⟨0, _⟩ => show win0_7.index t (0 : Fin 1) * 5 + 1 * a.val = a.val; omega
  have e8 : ∀ (a : Fin 5) (b : Fin 1), iblk m c 8 t (ix2 a b) = V m c main_arg9 (ix2 a b) := by
    intro a b
    rw [blk8]
    refine congrArg (V m c main_arg9) ?_
    funext a'; apply Fin.ext
    match a' with
    | ⟨0, _⟩ => show win0_8.index t (0 : Fin 2) * 5 + 1 * a.val = a.val; omega
    | ⟨1, _⟩ => show win0_8.index t (1 : Fin 2) * 1 + 1 * b.val = b.val; omega
  have e9 : ∀ (a : Fin 1), iblk m c 9 t (ix1 a) = V m c main_arg10 (ix1 a) := by
    intro a
    rw [blk9]
    refine congrArg (V m c main_arg10) ?_
    funext a'; apply Fin.ext
    match a' with
    | ⟨0, _⟩ => show win0_9.index t (0 : Fin 1) * 1 + 1 * a.val = a.val; omega
  unfold G
  simp only [e0, e1, e2, e3, e4, e5, e6, e7, e8, e9]

theorem mem_blk (t : Fin cfg0.N) (i : S512x1.Idx) :
    i ∈ ((cfg0.win 10).blk t).view.set ↔ ∀ a : Fin 2, win0_10.index t a * S16x1.size a ≤ (i a).val ∧ (i a).val < win0_10.index t a * S16x1.size a + S16x1.size a := by
  show i ∈ ((View.whole main_v4).slice (win0_10.rect t)).set ↔ _
  rw [View.set_slice_whole, Rect.mem_set_unit]
  exact Iff.rfl

theorem idx_onto : ∀ q0 : Fin 32, ∃ t : Fin cfg0.N, win0_10.index t = ![q0.val, 0] :=
  (by decide +kernel : ∀ q0 : Fin 32, ∃ t : Fin grid0.N, win0_10.index t = ![q0.val, 0])

/-- Row `r` is in the block of point `r / 16`. -/
theorem cover (i : S512x1.Idx) : ∃ t : Fin cfg0.N, (cfg0.win 10).flush t = true ∧ i ∈ ((cfg0.win 10).blk t).view.set := by
  have hi0 : (i 0).val < 512 := (i 0).isLt
  have hi1 : (i 1).val < 1 := (i 1).isLt
  obtain ⟨t, ht⟩ := idx_onto ⟨(i 0).val / 16, by omega⟩
  have q0 : win0_10.index t (0 : Fin 2) = (i 0).val / 16 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 16 ≤ (i 0).val ∧ (i 0).val < win0_10.index t (0 : Fin 2) * 16 + 16; omega
  | ⟨1, _⟩ => show win0_10.index t (1 : Fin 2) * 1 ≤ (i 1).val ∧ (i 1).val < win0_10.index t (1 : Fin 2) * 1 + 1; omega

/-- The result array after the run is `G` of the arrays the region finds. -/
theorem final (c : Dev nD) : (dats m 0 c).arrAt 10 cfg0.N
    = G (V m c main_v0) (V m c main_v1) (V m c main_v2) (V m c main_v3) (V m c main_arg5) (V m c main_arg6) (V m c main_arg7)
        (V m c main_arg8) (V m c main_arg9) (V m c main_arg10) :=
  (dats m 0 c).arrAt_eq_of_cover 10 _ (fun t _ => flushed_eq m c t) cover

/-- Under the precondition the result is `G` of the plain lookups and the weights; the arguments end unchanged. -/
theorem run (h : Cert.Pre_KernelIdeal m) :
    θ_run defs (onTc (τ := τ) (main (F := Ideal))) ⟨m, fun _ => 0, ρ⟩ fun r => ∀ c : Dev nD,
      r.2.mem ((c : Thread nD τ).loc main_v4)
        = G (Cert.PreDecode.gath16 (F := Ideal) (m ((c.tc : Thread nD τ).loc main_arg4)) (m ((c.tc : Thread nD τ).loc main_arg0)))
            (Cert.PreDecode.gath512 (F := Ideal) (m ((c.tc : Thread nD τ).loc main_arg4)) (m ((c.tc : Thread nD τ).loc main_arg1)))
            (Cert.PreDecode.gath16 (F := Ideal) (m ((c.tc : Thread nD τ).loc main_arg4)) (m ((c.tc : Thread nD τ).loc main_arg2)))
            (Cert.PreDecode.gath512 (F := Ideal) (m ((c.tc : Thread nD τ).loc main_arg4)) (m ((c.tc : Thread nD τ).loc main_arg3)))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r hr c => ⟨(hr c).1.trans ((final m c).trans (by
      rw [Cert.PreDecode.V_main_v0 m c h, Cert.PreDecode.V_main_v1 m c h, Cert.PreDecode.V_main_v2 m c h, Cert.PreDecode.V_main_v3 m c h,
        V_main_arg5 m c, V_main_arg6 m c, V_main_arg7 m c, V_main_arg8 m c, V_main_arg9 m c, V_main_arg10 m c])), (hr c).2⟩)
    (Cert.KernelIdeal.Value.run_blocks m ρ)

end Cert.KBlocks

end
-- ==== Proof.RSide.lean ====
/-
  The reference's result as one composition of whole-array operations (`HOut`), read one batch row at a time: row `b`
  is `Cert.Spec.out` of row `b` of the four looked-up arrays and of the weights.
-/
import proofs.«417505_j37409165148283_1_alg».proof.Proof.Gen.ReferenceIdeal
import proofs.«417505_j37409165148283_1_alg».proof.Proof.Spec
import Idealize.ShloMosaic.Lib.ValueIdx
import Idealize.ShloMosaic.Lib.Pipeline.Value
import Idealize.ShloMosaic.PureOps.Ideal.Laws
import Idealize.ShloMosaic.PureOps.IdealRules
import Idealize.ShloMosaic.Lib.StackMember

noncomputable section

open scoped BigOperators

namespace Cert.RSide

open Cert.ReferenceIdeal Cert.ReferenceIdeal.Gen Idealize.ShloMosaic Idealize.ShloMosaic.ValueIdx

variable {F : FTy → Type} [FloatOps F]

/-- The embedding rows an index array selects; a negative index counts from the table's end. -/
def gath16 (emb : FVec F S100000x128 .f32) (q : IVec S512x16 32) : FVec F S512x16x128 .f32 :=
  Host.gather gather_S100000x128_S512x16x1_S512x16x128_2_0_n_n_0_2_1128 emb (broadcastInDim S512x16x1 ![0, 1] bcast_S512x16_S512x16x1_0_1 (select (cmpi .slt q (broadcastInDim S512x16 ![] bcast_S_S512x16 (constantI S_ 32 0#32))) (addi q (broadcastInDim S512x16 ![] bcast_S_S512x16 (constantI S_ 32 100000#32))) q))

def gath512 (emb : FVec F S100000x128 .f32) (q : IVec S512x512 32) : FVec F S512x512x128 .f32 :=
  Host.gather gather_S100000x128_S512x512x1_S512x512x128_2_0_n_n_0_2_1128 emb (broadcastInDim S512x512x1 ![0, 1] bcast_S512x512_S512x512x1_0_1 (select (cmpi .slt q (broadcastInDim S512x512 ![] bcast_S_S512x512 (constantI S_ 32 0#32))) (addi q (broadcastInDim S512x512 ![] bcast_S_S512x512 (constantI S_ 32 100000#32))) q))

/-- Each row over the larger of its norm and the tiny constant. -/
def nrm16 (x : FVec F S512x16x128 .f32) : FVec F S512x16x128 .f32 :=
  Host.divf x (broadcastInDim S512x16x128 ![0, 1, 2] bcast_S512x16x1_S512x16x128_0_1_2 (maximumf (Host.sqrt (broadcastInDim S512x16x1 ![0, 1] bcast_S512x16_S512x16x1_0_1 (Host.reduceAdd (mulf x x) (constant S_ .f32 0x00000000#32) reducesTo_S512x16x128_S512x16_d2 h_S_))) (broadcastInDim S512x16x1 ![] bcast_S_S512x16x1 (constant S_ .f32 0x2B8CBCCC#32))))

def nrm512 (x : FVec F S512x512x128 .f32) : FVec F S512x512x128 .f32 :=
  Host.divf x (broadcastInDim S512x512x128 ![0, 1, 2] bcast_S512x512x1_S512x512x128_0_1_2 (maximumf (Host.sqrt (broadcastInDim S512x512x1 ![0, 1] bcast_S512x512_S512x512x1_0_1 (Host.reduceAdd (mulf x x) (constant S_ .f32 0x00000000#32) reducesTo_S512x512x128_S512x512_d2 h_S_))) (broadcastInDim S512x512x1 ![] bcast_S_S512x512x1 (constant S_ .f32 0x2B8CBCCC#32))))

/-- The batched cosine table. -/
def mm (a : FVec F S512x16x128 .f32) (b : FVec F S512x512x128 .f32) : FVec F S512x16x512 .f32 :=
  Host.dotGeneral dot_S512x16x128_S512x512x128_S512x16x512_2_2_1_1_0_0 none a b

/-- One histogram bin for every batch row. -/
def feat (μ σ : BitVec 32) (M : FVec F S512x16x512 .f32) : FVec F S512 .f32 :=
  Host.reduceAdd (Host.log1p (Host.reduceAdd (Host.exp (Host.divf (mulf (broadcastInDim S512x16x512 ![] bcast_S_S512x16x512 (constant S_ .f32 0xBF000000#32)) (mulf (subf M (broadcastInDim S512x16x512 ![] bcast_S_S512x16x512 (constant S_ .f32 μ))) (subf M (broadcastInDim S512x16x512 ![] bcast_S_S512x16x512 (constant S_ .f32 μ))))) (broadcastInDim S512x16x512 ![] bcast_S_S512x16x512 (constant S_ .f32 σ)))) (constant S_ .f32 0x00000000#32) reducesTo_S512x16x512_S512x16_d2 h_S_)) (constant S_ .f32 0x00000000#32) reducesTo_S512x16_S512_d1 h_S_

def col (μ σ : BitVec 32) (M : FVec F S512x16x512 .f32) : FVec F S512x1 .f32 :=
  broadcastInDim S512x1 ![0] bcast_S512_S512x1_0 (feat μ σ M)

/-- The 21 bins side by side: sixteen columns, then five, joined. -/
def hist (M : FVec F S512x16x512 .f32) : FVec F S512x21 .f32 :=
  concatenate S512x21 1 [⟨S512x16, (concatenate S512x16 1 [⟨S512x1, col 0xBF733333#32 0x3C23D70A#32 M⟩, ⟨S512x1, col 0xBF59999A#32 0x3C23D70A#32 M⟩, ⟨S512x1, col 0xBF400000#32 0x3C23D70A#32 M⟩, ⟨S512x1, col 0xBF266666#32 0x3C23D70A#32 M⟩, ⟨S512x1, col 0xBF0CCCCD#32 0x3C23D70A#32 M⟩, ⟨S512x1, col 0xBEE66666#32 0x3C23D70A#32 M⟩, ⟨S512x1, col 0xBEB33333#32 0x3C23D70A#32 M⟩, ⟨S512x1, col 0xBE800000#32 0x3C23D70A#32 M⟩, ⟨S512x1, col 0xBE19999A#32 0x3C23D70A#32 M⟩, ⟨S512x1, col 0xBD4CCCCD#32 0x3C23D70A#32 M⟩, ⟨S512x1, col 0x3D4CCCCD#32 0x3C23D70A#32 M⟩, ⟨S512x1, col 0x3E19999A#32 0x3C23D70A#32 M⟩, ⟨S512x1, col 0x3E800000#32 0x3C23D70A#32 M⟩, ⟨S512x1, col 0x3EB33333#32 0x3C23D70A#32 M⟩, ⟨S512x1, col 0x3EE66666#32 0x3C23D70A#32 M⟩, ⟨S512x1, col 0x3F0CCCCD#32 0x3C23D70A#32 M⟩] concatenates_S512x1_S512x1_S512x1_S512x1_S512x1_S512x1_S512x1_S512x1_S512x1_S512x1_S512x1_S512x1_S512x1_S512x1_S512x1_S512x1_S512x16_d1)⟩, ⟨S512x5, (concatenate S512x5 1 [⟨S512x1, col 0x3F266666#32 0x3C23D70A#32 M⟩, ⟨S512x1, col 0x3F400000#32 0x3C23D70A#32 M⟩, ⟨S512x1, col 0x3F59999A#32 0x3C23D70A#32 M⟩, ⟨S512x1, col 0x3F733333#32 0x3C23D70A#32 M⟩, ⟨S512x1, col 0x3F800000#32 0x358637BD#32 M⟩] concatenates_S512x1_S512x1_S512x1_S512x1_S512x1_S512x5_d1)⟩] concatenates_S512x16_S512x5_S512x21_d1

/-- The three affine layers. -/
def mlp (K : FVec F S512x21 .f32) (W1 : FVec F S21x10 .f32) (b1 : FVec F S10 .f32) (W2 : FVec F S10x5 .f32) (b2 : FVec F S5 .f32)
    (W3 : FVec F S5x1 .f32) (b3 : FVec F S1 .f32) : FVec F S512x1 .f32 :=
  addf (Host.dotGeneral dot_S512x5_S5x1_S512x1_1_0_0_1_n_n none (maximumf (addf (Host.dotGeneral dot_S512x10_S10x5_S512x5_1_0_0_1_n_n none (maximumf (addf (Host.dotGeneral dot_S512x21_S21x10_S512x10_1_0_0_1_n_n none K W1) (broadcastInDim S512x10 ![0, 1] bcast_S1x10_S512x10_0_1 (broadcastInDim S1x10 ![1] bcast_S10_S1x10_1 b1))) (broadcastInDim S512x10 ![] bcast_S_S512x10 (constant S_ .f32 0x00000000#32))) W2) (broadcastInDim S512x5 ![0, 1] bcast_S1x5_S512x5_0_1 (broadcastInDim S1x5 ![1] bcast_S5_S1x5_1 b2))) (broadcastInDim S512x5 ![] bcast_S_S512x5 (constant S_ .f32 0x00000000#32))) W3) (broadcastInDim S512x1 ![0, 1] bcast_S1x1_S512x1_0_1 (broadcastInDim S1x1 ![1] bcast_S1_S1x1_1 b3))

def pred (E : FVec F S512x16x128 .f32) (D : FVec F S512x512x128 .f32) (W1 : FVec F S21x10 .f32) (b1 : FVec F S10 .f32)
    (W2 : FVec F S10x5 .f32) (b2 : FVec F S5 .f32) (W3 : FVec F S5x1 .f32) (b3 : FVec F S1 .f32) : FVec F S512x1 .f32 :=
  mlp (hist (mm (nrm16 E) (nrm512 D))) W1 b1 W2 b2 W3 b3

/-- `1 / (1 + exp (-(score₁ - score₂)))` for every batch row. -/
def HOut (E1 : FVec F S512x16x128 .f32) (D1 : FVec F S512x512x128 .f32) (E2 : FVec F S512x16x128 .f32) (D2 : FVec F S512x512x128 .f32)
    (W1 : FVec F S21x10 .f32) (b1 : FVec F S10 .f32) (W2 : FVec F S10x5 .f32) (b2 : FVec F S5 .f32)
    (W3 : FVec F S5x1 .f32) (b3 : FVec F S1 .f32) : FVec F S512x1 .f32 :=
  Host.divf (broadcastInDim S512x1 ![] bcast_S_S512x1 (constant S_ .f32 0x3F800000#32)) (addf (broadcastInDim S512x1 ![] bcast_S_S512x1 (constant S_ .f32 0x3F800000#32)) (Host.exp (Host.negf (subf (pred E1 D1 W1 b1 W2 b2 W3 b3) (pred E2 D2 W1 b1 W2 b2 W3 b3)))))

/-- Summing the last of three axes puts the summed coordinate last. -/
theorem lift3_last {n0 n1 n2 : ℕ} (h : Shape.Reduces ⟨3, ![n0, n1, n2]⟩ [2] ⟨2, ![n0, n1]⟩) (a : Fin n0) (b : Fin n1)
    (k : Fin n2) : h.lift (ix2 a b) k = ix3 a b k := by
  funext ax
  apply Fin.ext
  match ax with
  | ⟨0, _⟩ => rfl
  | ⟨1, _⟩ => rfl
  | ⟨2, _⟩ => rfl

theorem lift2_last {n0 n1 : ℕ} (h : Shape.Reduces ⟨2, ![n0, n1]⟩ [1] ⟨1, ![n0]⟩) (a : Fin n0) (k : Fin n1) :
    h.lift (ix1 a) k = ix2 a k := by
  funext ax
  apply Fin.ext
  match ax with
  | ⟨0, _⟩ => rfl
  | ⟨1, _⟩ => rfl

theorem nrm16_apply (x : FVec Ideal S512x16x128 .f32) (b : Fin 512) (l : Fin 16) (d : Fin 128) :
    nrm16 x (ix3 b l d) = Cert.Spec.nrm (fun l d => x (ix3 b l d)) l d := by
  have e1 : ∀ y : FVec Ideal S512x16x1 .f32,
      broadcastInDim S512x16x128 ![0, 1, 2] bcast_S512x16x1_S512x16x128_0_1_2 y (ix3 b l d) = y (ix3 b l (0 : Fin 1)) :=
    fun y => broadcastInDim_apply _ _ y _ _ (fun a => by
      match a with
      | ⟨0, _⟩ => rfl
      | ⟨1, _⟩ => rfl
      | ⟨2, _⟩ => rfl)
  have e2 : ∀ y : FVec Ideal S512x16 .f32,
      broadcastInDim S512x16x1 ![0, 1] bcast_S512x16_S512x16x1_0_1 y (ix3 b l (0 : Fin 1)) = y (ix2 b l) :=
    fun y => broadcastInDim_apply _ _ y _ _ (fun a => by
      match a with
      | ⟨0, _⟩ => rfl
      | ⟨1, _⟩ => rfl)
  unfold nrm16 Cert.Spec.nrm
  show Ideal.div (x (ix3 b l d)) (broadcastInDim (s := S512x16x1) S512x16x128 ![0, 1, 2] bcast_S512x16x1_S512x16x128_0_1_2 _ (ix3 b l d)) = _
  rw [e1]
  show Ideal.div _ (max (Ideal.sqrt (broadcastInDim (s := S512x16) S512x16x1 ![0, 1] bcast_S512x16_S512x16x1_0_1 _ (ix3 b l (0 : Fin 1)))) (Ideal.ofBits .f32 0x2B8CBCCC#32)) = _
  rw [e2]
  show Ideal.div _ (max (Ideal.sqrt (Ideal.hostReduceAdd reducesTo_S512x16x128_S512x16_d2 (mulf x x)
    (Ideal.ofBits .f32 0x00000000#32) (ix2 b l))) _) = _
  rw [Ideal.hostReduceAdd_single reducesTo_S512x16x128_S512x16_d2 (by decide), Ideal.ofBits_zero_f32, zero_add]
  refine congrArg (fun s => Ideal.div _ (max (Ideal.sqrt s) _)) (Finset.sum_congr rfl fun k _ => ?_)
  exact congrArg (fun i => x i * x i) (lift3_last (n0 := 512) (n1 := 16) (n2 := 128) _ b l k)

theorem nrm512_apply (x : FVec Ideal S512x512x128 .f32) (b : Fin 512) (l : Fin 512) (d : Fin 128) :
    nrm512 x (ix3 b l d) = Cert.Spec.nrm (fun l d => x (ix3 b l d)) l d := by
  have e1 : ∀ y : FVec Ideal S512x512x1 .f32,
      broadcastInDim S512x512x128 ![0, 1, 2] bcast_S512x512x1_S512x512x128_0_1_2 y (ix3 b l d) = y (ix3 b l (0 : Fin 1)) :=
    fun y => broadcastInDim_apply _ _ y _ _ (fun a => by
      match a with
      | ⟨0, _⟩ => rfl
      | ⟨1, _⟩ => rfl
      | ⟨2, _⟩ => rfl)
  have e2 : ∀ y : FVec Ideal S512x512 .f32,
      broadcastInDim S512x512x1 ![0, 1] bcast_S512x512_S512x512x1_0_1 y (ix3 b l (0 : Fin 1)) = y (ix2 b l) :=
    fun y => broadcastInDim_apply _ _ y _ _ (fun a => by
      match a with
      | ⟨0, _⟩ => rfl
      | ⟨1, _⟩ => rfl)
  unfold nrm512 Cert.Spec.nrm
  show Ideal.div (x (ix3 b l d)) (broadcastInDim (s := S512x512x1) S512x512x128 ![0, 1, 2] bcast_S512x512x1_S512x512x128_0_1_2 _ (ix3 b l d)) = _
  rw [e1]
  show Ideal.div _ (max (Ideal.sqrt (broadcastInDim (s := S512x512) S512x512x1 ![0, 1] bcast_S512x512_S512x512x1_0_1 _ (ix3 b l (0 : Fin 1)))) (Ideal.ofBits .f32 0x2B8CBCCC#32)) = _
  rw [e2]
  show Ideal.div _ (max (Ideal.sqrt (Ideal.hostReduceAdd reducesTo_S512x512x128_S512x512_d2 (mulf x x)
    (Ideal.ofBits .f32 0x00000000#32) (ix2 b l))) _) = _
  rw [Ideal.hostReduceAdd_single reducesTo_S512x512x128_S512x512_d2 (by decide), Ideal.ofBits_zero_f32, zero_add]
  refine congrArg (fun s => Ideal.div _ (max (Ideal.sqrt s) _)) (Finset.sum_congr rfl fun k _ => ?_)
  exact congrArg (fun i => x i * x i) (lift3_last (n0 := 512) (n1 := 512) (n2 := 128) _ b l k)

theorem mm_lhs0 (j : S512x16x512.Idx) (k : dot_S512x16x128_S512x512x128_S512x16x512_2_2_1_1_0_0.contr.Idx) :
    (dot_S512x16x128_S512x512x128_S512x16x512_2_2_1_1_0_0.lhsIdx j k 0).val = (j 0).val := rfl
theorem mm_lhs1 (j : S512x16x512.Idx) (k : dot_S512x16x128_S512x512x128_S512x16x512_2_2_1_1_0_0.contr.Idx) :
    (dot_S512x16x128_S512x512x128_S512x16x512_2_2_1_1_0_0.lhsIdx j k 1).val = (j 1).val := rfl
theorem mm_lhs2 (j : S512x16x512.Idx) (k : dot_S512x16x128_S512x512x128_S512x16x512_2_2_1_1_0_0.contr.Idx) :
    (dot_S512x16x128_S512x512x128_S512x16x512_2_2_1_1_0_0.lhsIdx j k 2).val = (k ⟨0, by decide⟩).val :=
  DotDims.lhsIdx_val_of_single _ rfl j k
theorem mm_rhs0 (j : S512x16x512.Idx) (k : dot_S512x16x128_S512x512x128_S512x16x512_2_2_1_1_0_0.contr.Idx) :
    (dot_S512x16x128_S512x512x128_S512x16x512_2_2_1_1_0_0.rhsIdx j k 0).val = (j 0).val := rfl
theorem mm_rhs1 (j : S512x16x512.Idx) (k : dot_S512x16x128_S512x512x128_S512x16x512_2_2_1_1_0_0.contr.Idx) :
    (dot_S512x16x128_S512x512x128_S512x16x512_2_2_1_1_0_0.rhsIdx j k 1).val = (j 2).val := rfl
theorem mm_rhs2 (j : S512x16x512.Idx) (k : dot_S512x16x128_S512x512x128_S512x16x512_2_2_1_1_0_0.contr.Idx) :
    (dot_S512x16x128_S512x512x128_S512x16x512_2_2_1_1_0_0.rhsIdx j k 2).val = (k ⟨0, by decide⟩).val :=
  DotDims.rhsIdx_val_of_single _ rfl j k

/-- An entry of the batched product is an inner product of two rows. -/
theorem mm_apply (a : FVec Ideal S512x16x128 .f32) (k : FVec Ideal S512x512x128 .f32) (b : Fin 512) (l : Fin 16)
    (r : Fin 512) : mm a k (ix3 b l r) = ∑ d : Fin 128, a (ix3 b l d) * k (ix3 b r d) := by
  show FloatOps.dotGeneral dot_S512x16x128_S512x512x128_S512x16x512_2_2_1_1_0_0 none .single a k (ix3 b l r) = _
  rw [Ideal.dotGeneral_apply, ← Equiv.sum_comp (contrEquiv1 dot_S512x16x128_S512x512x128_S512x16x512_2_2_1_1_0_0 128 rfl rfl).symm]
  refine Finset.sum_congr rfl fun c _ => ?_
  have hc := contrEquiv1_symm_val dot_S512x16x128_S512x512x128_S512x16x512_2_2_1_1_0_0 128 rfl rfl c
  have hl : dot_S512x16x128_S512x512x128_S512x16x512_2_2_1_1_0_0.lhsIdx (ix3 b l r) ((contrEquiv1 dot_S512x16x128_S512x512x128_S512x16x512_2_2_1_1_0_0 128 rfl rfl).symm c) = ix3 b l c := by
    funext ax
    apply Fin.ext
    match ax with
    | ⟨0, _⟩ => exact mm_lhs0 _ _
    | ⟨1, _⟩ => exact mm_lhs1 _ _
    | ⟨2, _⟩ => exact (mm_lhs2 _ _).trans hc
  have hr : dot_S512x16x128_S512x512x128_S512x16x512_2_2_1_1_0_0.rhsIdx (ix3 b l r) ((contrEquiv1 dot_S512x16x128_S512x512x128_S512x16x512_2_2_1_1_0_0 128 rfl rfl).symm c) = ix3 b r c := by
    funext ax
    apply Fin.ext
    match ax with
    | ⟨0, _⟩ => exact mm_rhs0 _ _
    | ⟨1, _⟩ => exact mm_rhs1 _ _
    | ⟨2, _⟩ => exact (mm_rhs2 _ _).trans hc
  rw [hl, hr]

theorem reduceAdd3_last_apply {n0 n1 n2 : ℕ} (h' : Shape.ReducesTo ⟨3, ![n0, n1, n2]⟩ [2] ⟨2, ![n0, n1]⟩)
    (h : Shape.Reduces ⟨3, ![n0, n1, n2]⟩ [2] ⟨2, ![n0, n1]⟩) (hu : 0 < S_.numel)
    (x : FVec Ideal ⟨3, ![n0, n1, n2]⟩ .f32) (a : Fin n0) (b : Fin n1) :
    Host.reduceAdd x (constant (F := Ideal) S_ .f32 0x00000000#32) h' hu (ix2 a b) = ∑ k : Fin n2, x (ix3 a b k) := by
  show Ideal.hostReduceAdd h' x (Ideal.ofBits .f32 0x00000000#32) (ix2 a b) = _
  rw [Ideal.hostReduceAdd_single h' h, Ideal.ofBits_zero_f32, zero_add]
  exact Finset.sum_congr rfl fun k _ => congrArg x (lift3_last h a b k)

theorem reduceAdd2_last_apply {n0 n1 : ℕ} (h' : Shape.ReducesTo ⟨2, ![n0, n1]⟩ [1] ⟨1, ![n0]⟩)
    (h : Shape.Reduces ⟨2, ![n0, n1]⟩ [1] ⟨1, ![n0]⟩) (hu : 0 < S_.numel)
    (x : FVec Ideal ⟨2, ![n0, n1]⟩ .f32) (a : Fin n0) :
    Host.reduceAdd x (constant (F := Ideal) S_ .f32 0x00000000#32) h' hu (ix1 a) = ∑ k : Fin n1, x (ix2 a k) := by
  show Ideal.hostReduceAdd h' x (Ideal.ofBits .f32 0x00000000#32) (ix1 a) = _
  rw [Ideal.hostReduceAdd_single h' h, Ideal.ofBits_zero_f32, zero_add]
  exact Finset.sum_congr rfl fun k _ => congrArg x (lift2_last h a k)

theorem feat_apply (μ σ : BitVec 32) (M : FVec Ideal S512x16x512 .f32) (b : Fin 512) :
    feat μ σ M (ix1 b) = Cert.Spec.feat μ σ (fun l r => M (ix3 b l r)) := by
  unfold feat Cert.Spec.feat
  rw [reduceAdd2_last_apply reducesTo_S512x16_S512_d1 (by decide)]
  refine Finset.sum_congr rfl fun l _ => ?_
  show Ideal.log1p (Host.reduceAdd (F := Ideal) _ _ reducesTo_S512x16x512_S512x16_d2 h_S_ (ix2 b l)) = _
  rw [reduceAdd3_last_apply reducesTo_S512x16x512_S512x16_d2 (by decide)]
  rfl

theorem col_apply (μ σ : BitVec 32) (M : FVec Ideal S512x16x512 .f32) (b : Fin 512) :
    col μ σ M (ix2 b (0 : Fin 1)) = Cert.Spec.feat μ σ (fun l r => M (ix3 b l r)) := by
  unfold col
  rw [broadcastInDim_apply _ bcast_S512_S512x1_0 _ (ix2 b (0 : Fin 1)) (ix1 b) (fun a => by
    match a with
    | ⟨0, _⟩ => rfl)]
  exact feat_apply μ σ M b

/-- Columns laid side by side, read at `(b, j)`: column `j` at `(b, 0)`. -/
theorem cols_ofFn_apply {α : Type} {n N : ℕ} (f : Fin N → ((⟨2, ![n, 1]⟩ : Shape).Idx → α))
    (h : Shape.Concatenates ((List.ofFn fun k : Fin N => (⟨⟨2, ![n, 1]⟩, f k⟩ : (s : Shape) × (s.Idx → α))).map (·.1))
      ⟨2, ![n, N]⟩ 1) (b : Fin n) (j : Fin N) :
    concatenate ⟨2, ![n, N]⟩ 1 (List.ofFn fun k : Fin N => (⟨⟨2, ![n, 1]⟩, f k⟩ : (s : Shape) × (s.Idx → α))) h (ix2 b j)
      = f j (ix2 b (0 : Fin 1)) :=
  concatenate_ofFn_apply 1 f h rfl 1 rfl (ix2 b j) j (Nat.div_one _) (ix2 b (0 : Fin 1)) (Nat.mod_one _).symm
    (fun a ha => by
      match a with
      | ⟨0, _⟩ => rfl
      | ⟨1, _⟩ => exact absurd rfl ha)

theorem hist_left {α : Type} (x₁ : S512x16.Idx → α) (x₂ : S512x5.Idx → α) (b : Fin 512) (j : Fin 21) (j' : Fin 16)
    (hj : j'.val = j.val) :
    concatenate S512x21 1 [⟨S512x16, x₁⟩, ⟨S512x5, x₂⟩] concatenates_S512x16_S512x5_S512x21_d1 (ix2 b j) = x₁ (ix2 b j') :=
  concatenate_pair_apply_left 1 x₁ x₂ _ (ix2 b j) rfl (ix2 b j') (fun a => by
    match a with
    | ⟨0, _⟩ => rfl
    | ⟨1, _⟩ => exact hj)

theorem hist_right {α : Type} (x₁ : S512x16.Idx → α) (x₂ : S512x5.Idx → α) (b : Fin 512) (j : Fin 21) (j' : Fin 5)
    (hj : j'.val + 16 = j.val) :
    concatenate S512x21 1 [⟨S512x16, x₁⟩, ⟨S512x5, x₂⟩] concatenates_S512x16_S512x5_S512x21_d1 (ix2 b j) = x₂ (ix2 b j') :=
  concatenate_pair_apply_right 1 x₁ x₂ _ (ix2 b j) rfl rfl (ix2 b j') (fun a ha => by
    match a with
    | ⟨0, _⟩ => rfl
    | ⟨1, _⟩ => exact absurd rfl ha) hj

def cols (M : FVec Ideal S512x16x512 .f32) (j : Fin 21) : FVec Ideal S512x1 .f32 :=
  col (Cert.Spec.mus j) (Cert.Spec.sgs j) M

theorem hist_eq (M : FVec Ideal S512x16x512 .f32) :
    hist M = concatenate S512x21 1
      [⟨S512x16, concatenate S512x16 1
          (List.ofFn fun k : Fin 16 => (⟨S512x1, cols M (k.castLE (by decide))⟩ : ((s : Shape) × (s.Idx → Ideal .f32)))) concatenates_S512x1_S512x1_S512x1_S512x1_S512x1_S512x1_S512x1_S512x1_S512x1_S512x1_S512x1_S512x1_S512x1_S512x1_S512x1_S512x1_S512x16_d1⟩,
       ⟨S512x5, concatenate S512x5 1
          (List.ofFn fun k : Fin 5 => (⟨S512x1, cols M ⟨k.val + 16, by omega⟩⟩ : ((s : Shape) × (s.Idx → Ideal .f32)))) concatenates_S512x1_S512x1_S512x1_S512x1_S512x1_S512x5_d1⟩]
      concatenates_S512x16_S512x5_S512x21_d1 := rfl

/-- Bin `j` of batch row `b` is the specification's bin of that row's cosine table. -/
theorem hist_apply (M : FVec Ideal S512x16x512 .f32) (b : Fin 512) (j : Fin 21) :
    hist M (ix2 b j) = Cert.Spec.feats (fun l r => M (ix3 b l r)) j := by
  rw [hist_eq]
  by_cases hj : j.val < 16
  · rw [hist_left _ _ b j ⟨j.val, hj⟩ rfl]
    refine (cols_ofFn_apply (fun k : Fin 16 => cols M (k.castLE (by decide))) _ b ⟨j.val, hj⟩).trans ?_
    exact col_apply _ _ M b
  · have h5 : j.val - 16 < 5 := by have := j.isLt; omega
    have e : ∀ hlt : j.val - 16 + 16 < 21, (⟨j.val - 16 + 16, hlt⟩ : Fin 21) = j :=
      fun _ => Fin.ext (by show j.val - 16 + 16 = j.val; omega)
    rw [hist_right _ _ b j ⟨j.val - 16, h5⟩ (by show j.val - 16 + 16 = j.val; omega)]
    refine (cols_ofFn_apply (fun k : Fin 5 => cols M ⟨k.val + 16, by omega⟩) _ b ⟨j.val - 16, h5⟩).trans ?_
    show cols M ⟨j.val - 16 + 16, _⟩ (ix2 b (0 : Fin 1)) = _
    rw [e]
    exact col_apply _ _ M b

theorem dot21_apply (A : FVec Ideal S512x21 .f32) (B : FVec Ideal S21x10 .f32) (b : Fin 512) (c : Fin 10) :
    Host.dotGeneral dot_S512x21_S21x10_S512x10_1_0_0_1_n_n none A B (ix2 b c) = ∑ i : Fin 21, A (ix2 b i) * B (ix2 i c) :=
  StackMember.dotGeneral_plain_apply none A B b c

theorem dot10_apply (A : FVec Ideal S512x10 .f32) (B : FVec Ideal S10x5 .f32) (b : Fin 512) (c : Fin 5) :
    Host.dotGeneral dot_S512x10_S10x5_S512x5_1_0_0_1_n_n none A B (ix2 b c) = ∑ i : Fin 10, A (ix2 b i) * B (ix2 i c) :=
  StackMember.dotGeneral_plain_apply none A B b c

theorem dot5_apply (A : FVec Ideal S512x5 .f32) (B : FVec Ideal S5x1 .f32) (b : Fin 512) (c : Fin 1) :
    Host.dotGeneral dot_S512x5_S5x1_S512x1_1_0_0_1_n_n none A B (ix2 b c) = ∑ i : Fin 5, A (ix2 b i) * B (ix2 i c) :=
  StackMember.dotGeneral_plain_apply none A B b c

theorem bias10_apply (v : FVec Ideal S10 .f32) (b : Fin 512) (c : Fin 10) :
    broadcastInDim S512x10 ![0, 1] bcast_S1x10_S512x10_0_1 (broadcastInDim S1x10 ![1] bcast_S10_S1x10_1 v) (ix2 b c)
      = v (ix1 c) := by
  rw [broadcastInDim_apply _ bcast_S1x10_S512x10_0_1 _ (ix2 b c) (ix2 (0 : Fin 1) c) (fun a => by
    match a with
    | ⟨0, _⟩ => rfl
    | ⟨1, _⟩ => rfl)]
  exact broadcastInDim_apply _ bcast_S10_S1x10_1 v _ (ix1 c) (fun a => by
    match a with
    | ⟨0, _⟩ => rfl)

theorem bias5_apply (v : FVec Ideal S5 .f32) (b : Fin 512) (c : Fin 5) :
    broadcastInDim S512x5 ![0, 1] bcast_S1x5_S512x5_0_1 (broadcastInDim S1x5 ![1] bcast_S5_S1x5_1 v) (ix2 b c)
      = v (ix1 c) := by
  rw [broadcastInDim_apply _ bcast_S1x5_S512x5_0_1 _ (ix2 b c) (ix2 (0 : Fin 1) c) (fun a => by
    match a with
    | ⟨0, _⟩ => rfl
    | ⟨1, _⟩ => rfl)]
  exact broadcastInDim_apply _ bcast_S5_S1x5_1 v _ (ix1 c) (fun a => by
    match a with
    | ⟨0, _⟩ => rfl)

theorem bias1_apply (v : FVec Ideal S1 .f32) (b : Fin 512) (c : Fin 1) :
    broadcastInDim S512x1 ![0, 1] bcast_S1x1_S512x1_0_1 (broadcastInDim S1x1 ![1] bcast_S1_S1x1_1 v) (ix2 b c)
      = v (ix1 (0 : Fin 1)) := by
  rw [broadcastInDim_apply _ bcast_S1x1_S512x1_0_1 _ (ix2 b c) (ix2 (0 : Fin 1) (0 : Fin 1)) (fun a => by
    match a with
    | ⟨0, _⟩ => rfl
    | ⟨1, _⟩ => rfl)]
  exact broadcastInDim_apply _ bcast_S1_S1x1_1 v _ (ix1 (0 : Fin 1)) (fun a => by
    match a with
    | ⟨0, _⟩ => rfl)

theorem layer1_apply (H : FVec Ideal S512x21 .f32) (W : FVec Ideal S21x10 .f32) (v : FVec Ideal S10 .f32) (b : Fin 512)
    (c : Fin 10) :
    maximumf (addf (Host.dotGeneral dot_S512x21_S21x10_S512x10_1_0_0_1_n_n none H W)
        (broadcastInDim S512x10 ![0, 1] bcast_S1x10_S512x10_0_1 (broadcastInDim S1x10 ![1] bcast_S10_S1x10_1 v)))
      (broadcastInDim S512x10 ![] bcast_S_S512x10 (constant S_ .f32 0x00000000#32)) (ix2 b c)
      = Cert.Spec.lin1 (fun a c => W (ix2 a c)) (fun a => v (ix1 a)) (fun j => H (ix2 b j)) c := by
  show max (Host.dotGeneral dot_S512x21_S21x10_S512x10_1_0_0_1_n_n none H W (ix2 b c)
    + broadcastInDim S512x10 ![0, 1] bcast_S1x10_S512x10_0_1 (broadcastInDim S1x10 ![1] bcast_S10_S1x10_1 v) (ix2 b c))
    (Ideal.ofBits .f32 0x00000000#32) = _
  rw [dot21_apply, bias10_apply, Ideal.ofBits_zero_f32]
  rfl

theorem layer2_apply (H : FVec Ideal S512x10 .f32) (W : FVec Ideal S10x5 .f32) (v : FVec Ideal S5 .f32) (b : Fin 512)
    (c : Fin 5) :
    maximumf (addf (Host.dotGeneral dot_S512x10_S10x5_S512x5_1_0_0_1_n_n none H W)
        (broadcastInDim S512x5 ![0, 1] bcast_S1x5_S512x5_0_1 (broadcastInDim S1x5 ![1] bcast_S5_S1x5_1 v)))
      (broadcastInDim S512x5 ![] bcast_S_S512x5 (constant S_ .f32 0x00000000#32)) (ix2 b c)
      = Cert.Spec.lin2 (fun a c => W (ix2 a c)) (fun a => v (ix1 a)) (fun j => H (ix2 b j)) c := by
  show max (Host.dotGeneral dot_S512x10_S10x5_S512x5_1_0_0_1_n_n none H W (ix2 b c)
    + broadcastInDim S512x5 ![0, 1] bcast_S1x5_S512x5_0_1 (broadcastInDim S1x5 ![1] bcast_S5_S1x5_1 v) (ix2 b c))
    (Ideal.ofBits .f32 0x00000000#32) = _
  rw [dot10_apply, bias5_apply, Ideal.ofBits_zero_f32]
  rfl

theorem layer3_apply (H : FVec Ideal S512x5 .f32) (W : FVec Ideal S5x1 .f32) (v : FVec Ideal S1 .f32) (b : Fin 512) :
    addf (Host.dotGeneral dot_S512x5_S5x1_S512x1_1_0_0_1_n_n none H W)
        (broadcastInDim S512x1 ![0, 1] bcast_S1x1_S512x1_0_1 (broadcastInDim S1x1 ![1] bcast_S1_S1x1_1 v)) (ix2 b (0 : Fin 1))
      = Cert.Spec.lin3 (fun a => W (ix2 a (0 : Fin 1))) (v (ix1 (0 : Fin 1))) (fun j => H (ix2 b j)) := by
  show Host.dotGeneral dot_S512x5_S5x1_S512x1_1_0_0_1_n_n none H W (ix2 b (0 : Fin 1))
    + broadcastInDim S512x1 ![0, 1] bcast_S1x1_S512x1_0_1 (broadcastInDim S1x1 ![1] bcast_S1_S1x1_1 v) (ix2 b (0 : Fin 1)) = _
  rw [dot5_apply, bias1_apply]
  rfl

theorem mlp_apply (K : FVec Ideal S512x21 .f32) (W1 : FVec Ideal S21x10 .f32) (b1 : FVec Ideal S10 .f32)
    (W2 : FVec Ideal S10x5 .f32) (b2 : FVec Ideal S5 .f32) (W3 : FVec Ideal S5x1 .f32) (b3 : FVec Ideal S1 .f32) (b : Fin 512) :
    mlp K W1 b1 W2 b2 W3 b3 (ix2 b (0 : Fin 1))
      = Cert.Spec.lin3 (fun a => W3 (ix2 a (0 : Fin 1))) (b3 (ix1 (0 : Fin 1)))
          (Cert.Spec.lin2 (fun a c => W2 (ix2 a c)) (fun a => b2 (ix1 a))
            (Cert.Spec.lin1 (fun a c => W1 (ix2 a c)) (fun a => b1 (ix1 a)) (fun j => K (ix2 b j)))) := by
  unfold mlp
  rw [layer3_apply]
  refine congrArg (Cert.Spec.lin3 _ _) (funext fun i => ?_)
  rw [layer2_apply]
  exact congrArg (fun h => Cert.Spec.lin2 _ _ h i) (funext fun k => layer1_apply K W1 b1 b k)

theorem pred_apply (E : FVec Ideal S512x16x128 .f32) (D : FVec Ideal S512x512x128 .f32) (W1 : FVec Ideal S21x10 .f32)
    (b1 : FVec Ideal S10 .f32) (W2 : FVec Ideal S10x5 .f32) (b2 : FVec Ideal S5 .f32) (W3 : FVec Ideal S5x1 .f32)
    (b3 : FVec Ideal S1 .f32) (b : Fin 512) :
    pred E D W1 b1 W2 b2 W3 b3 (ix2 b (0 : Fin 1))
      = Cert.Spec.pred (fun l d => E (ix3 b l d)) (fun r d => D (ix3 b r d)) (fun a c => W1 (ix2 a c)) (fun a => b1 (ix1 a))
          (fun a c => W2 (ix2 a c)) (fun a => b2 (ix1 a)) (fun a => W3 (ix2 a (0 : Fin 1))) (b3 (ix1 (0 : Fin 1))) := by
  have hh : (fun j => hist (mm (nrm16 E) (nrm512 D)) (ix2 b j))
      = Cert.Spec.feats (Cert.Spec.cosm (fun l d => E (ix3 b l d)) (fun r d => D (ix3 b r d))) := by
    funext j
    rw [hist_apply]
    refine congrArg (fun M => Cert.Spec.feats M j) (funext fun l => funext fun r => ?_)
    rw [mm_apply]
    unfold Cert.Spec.cosm
    refine Finset.sum_congr rfl fun d _ => ?_
    rw [nrm16_apply, nrm512_apply]
  unfold pred Cert.Spec.pred
  rw [mlp_apply, hh]

/-- Row `b` of the reference's result is the specification's value of row `b` of the inputs. -/
theorem HOut_apply (E1 : FVec Ideal S512x16x128 .f32) (D1 : FVec Ideal S512x512x128 .f32) (E2 : FVec Ideal S512x16x128 .f32)
    (D2 : FVec Ideal S512x512x128 .f32) (W1 : FVec Ideal S21x10 .f32) (b1 : FVec Ideal S10 .f32) (W2 : FVec Ideal S10x5 .f32)
    (b2 : FVec Ideal S5 .f32) (W3 : FVec Ideal S5x1 .f32) (b3 : FVec Ideal S1 .f32) (b : Fin 512) :
    HOut E1 D1 E2 D2 W1 b1 W2 b2 W3 b3 (ix2 b (0 : Fin 1))
      = Cert.Spec.out (fun l d => E1 (ix3 b l d)) (fun r d => D1 (ix3 b r d)) (fun l d => E2 (ix3 b l d)) (fun r d => D2 (ix3 b r d))
          (fun a c => W1 (ix2 a c)) (fun a => b1 (ix1 a)) (fun a c => W2 (ix2 a c)) (fun a => b2 (ix1 a))
          (fun a => W3 (ix2 a (0 : Fin 1))) (b3 (ix1 (0 : Fin 1))) := by
  unfold HOut Cert.Spec.out
  show Ideal.div (Ideal.ofBits .f32 0x3F800000#32) (Ideal.ofBits .f32 0x3F800000#32
    + Ideal.exp (-(pred E1 D1 W1 b1 W2 b2 W3 b3 (ix2 b (0 : Fin 1)) - pred E2 D2 W1 b1 W2 b2 W3 b3 (ix2 b (0 : Fin 1))))) = _
  rw [pred_apply, pred_apply, show Ideal.ofBits .f32 0x3F800000#32 = 1 from IdealRules.sign_bit.ideal_onePat .f32]
  rfl

end Cert.RSide

end
-- ==== Proof.Bridge.lean ====
/-
  Row `b` of the reference's result and row `b` of the kernel's are both `Cert.Spec.out` of row `b` of the same
  looked-up arrays and weights.
-/
import proofs.«417505_j37409165148283_1_alg».proof.Proof.KBlocks
import proofs.«417505_j37409165148283_1_alg».proof.Proof.RSide

noncomputable section

namespace Cert.Bridge

open Idealize.ShloMosaic Idealize.ShloMosaic.ValueIdx Cert.KernelIdeal

theorem result_eq (emb : FVec Ideal S100000x128 .f32) (q1 : IVec S512x16 32) (d1 : IVec S512x512 32) (q2 : IVec S512x16 32)
    (d2 : IVec S512x512 32) (W1 : FVec Ideal S21x10 .f32) (b1 : FVec Ideal S10 .f32) (W2 : FVec Ideal S10x5 .f32)
    (b2 : FVec Ideal S5 .f32) (W3 : FVec Ideal S5x1 .f32) (b3 : FVec Ideal S1 .f32) :
    Cert.RSide.HOut (F := Ideal) (Cert.RSide.gath16 emb q1) (Cert.RSide.gath512 emb d1) (Cert.RSide.gath16 emb q2) (Cert.RSide.gath512 emb d2)
        W1 b1 W2 b2 W3 b3
      = Cert.KBlocks.G (Cert.PreDecode.gath16 (F := Ideal) emb q1) (Cert.PreDecode.gath512 (F := Ideal) emb d1)
          (Cert.PreDecode.gath16 (F := Ideal) emb q2) (Cert.PreDecode.gath512 (F := Ideal) emb d2) W1 b1 W2 b2 W3 b3 := by
  funext j
  obtain ⟨b, rfl⟩ : ∃ b : Fin 512, j = ix2 b (0 : Fin 1) :=
    ⟨⟨(j 0).val, idx2_lt0 j⟩, by
      funext a
      match a with
      | ⟨0, _⟩ => rfl
      | ⟨1, _⟩ => exact Subsingleton.elim (α := Fin 1) _ _⟩
  rw [Cert.RSide.HOut_apply]
  rfl

end Cert.Bridge

end
-- ==== Proof.RefGood.lean ====
import Idealize.ShloMosaic.Lib.StableHlo.Run
import Idealize.ShloMosaic.Lib.Pipeline.Frame

namespace Cert.RefGood

open Idealize.ShloMosaic Idealize.ShloMosaic.StableHlo Idealize.SL.Sem

variable {τ : Topo} {sig : RefSig} {Val : EltTy → Type}

/-- What the run of a straight line of operations asks: each touches TensorCore references only, none allocates. -/
def Good (l : List (HloOp τ sig Val)) : Prop :=
  (l.Forall fun op => op.bufs ⊆ tcRefs τ sig) ∧ ∀ op ∈ l, op.fresh = ∅

theorem Good.mk' {l : List (HloOp τ sig Val)} (hb : l.Forall fun op => op.bufs ⊆ tcRefs τ sig)
    (hf : l.map HloOp.fresh = l.map fun _ => ∅) : Good l :=
  ⟨hb, List.map_inj_left.1 hf⟩

/-- Both facts are about the operations one by one, so they pass to any list drawn from a good one. -/
theorem Good.sub {l l' : List (HloOp τ sig Val)} (h : Good l) (hs : ∀ op ∈ l', op ∈ l) : Good l' :=
  ⟨List.forall_iff_forall_mem.2 fun op ho => List.forall_iff_forall_mem.1 h.1 op (hs op ho), fun op ho => h.2 op (hs op ho)⟩

theorem Good.take {l : List (HloOp τ sig Val)} (h : Good l) (n : ℕ) : Good (l.take n) := h.sub fun _ => List.mem_of_mem_take
theorem Good.drop {l : List (HloOp τ sig Val)} (h : Good l) (n : ℕ) : Good (l.drop n) := h.sub fun _ => List.mem_of_mem_drop

theorem Good.append {l₁ l₂ : List (HloOp τ sig Val)} (h₁ : Good l₁) (h₂ : Good l₂) : Good (l₁ ++ l₂) :=
  ⟨List.forall_iff_forall_mem.2 fun op h =>
      (List.mem_append.1 h).elim (List.forall_iff_forall_mem.1 h₁.1 op) (List.forall_iff_forall_mem.1 h₂.1 op),
    fun op h => (List.mem_append.1 h).elim (h₁.2 op) (h₂.2 op)⟩

/-- A line whose operations write the references `W`, one each in order, leaves every other reference as it found it. -/
theorem keep {l : List (HloOp τ sig Val)} {W : List (Ref sig .tc)}
    (hW : l.map HloOp.writes = W.map fun y => {Proc.devRef .tc y}) (V : Valuation τ sig Val) {r : Ref sig .tc} (hr : r ∉ W) :
    after l V (no_index (Proc.devRef .tc r)) = V (Proc.devRef .tc r) :=
  after_of_forall_not_mem l V fun op hop hb => by
    obtain ⟨y, hy, (he : {Proc.devRef .tc y} = op.writes)⟩ := List.mem_map.1 (hW ▸ List.mem_map_of_mem (f := HloOp.writes) hop)
    rw [← he, Finset.mem_singleton] at hb
    exact hr (Proc.devRef_injective _ hb ▸ hy)

/-- A line cut in two and run one part after the other is the line run whole. -/
theorem after_drop_take (l : List (HloOp τ sig Val)) (n : ℕ) (V : Valuation τ sig Val) :
    after (l.drop n) (after (l.take n) V) = after l V := by
  rw [← after_append, List.take_append_drop]

end Cert.RefGood
-- ==== Proof.RefOps.lean ====
/-
  The reference program is a straight line of 843 host operations, laid out here in order as named pieces: per
  query/document pair the lookups, normalisations and batched product (A), its 21 histogram bins (F), the bins as columns
  (C), the columns joined (K), the three affine layers (L); then the closing logistic (Z). The 42 bins are one list of
  sixteen operations over different references and centre and width words: `Bin`. Each piece is good for the run and
  leaves every reference it does not write as it found it. A printed window of the program is an append of pieces, a
  piece it cuts being taken up to the cut and dropped from it.
-/
import proofs.«417505_j37409165148283_1_alg».proof.Proof.Gen.ReferenceIdeal
import proofs.«417505_j37409165148283_1_alg».proof.Proof.RefGood
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

open Cert.RefGood (Good)

variable {F : FTy → Type} [FloatOps F]
/-- The references of one histogram bin's operations: the cosine array read, then the sixteen written, in order; and the
    bin's centre and squared-width words. -/
structure Bin where
  M : TRef sig ⟨S512x16x512, .f32⟩
  c1 : TRef sig ⟨S_, .f32⟩
  (v1 v2 v3 : TRef sig ⟨S512x16x512, .f32⟩)
  c2 : TRef sig ⟨S_, .f32⟩
  (v4 v5 : TRef sig ⟨S512x16x512, .f32⟩)
  c3 : TRef sig ⟨S_, .f32⟩
  (v6 v7 v8 : TRef sig ⟨S512x16x512, .f32⟩)
  c4 : TRef sig ⟨S_, .f32⟩
  (v9 v10 : TRef sig ⟨S512x16, .f32⟩)
  c5 : TRef sig ⟨S_, .f32⟩
  v11 : TRef sig ⟨S512, .f32⟩
  (μ σ : BitVec 32)

namespace Bin

/-- One bin: over query rows, `log (1 + ∑ exp (-(M - μ)² / 2σ))`, as sixteen operations. -/
def ops (b : Bin) : List (HloOp τ sig (Elt F)) :=
  [ TRef.nullary b.c1 (constant S_ .f32 b.μ),
    TRef.unary b.c1 b.v1 (broadcastInDim S512x16x512 ![] bcast_S_S512x16x512),
    TRef.binary b.M b.v1 b.v2 subf,
    TRef.binary b.v2 b.v2 b.v3 mulf,
    TRef.nullary b.c2 (constant S_ .f32 0xBF000000#32),
    TRef.unary b.c2 b.v4 (broadcastInDim S512x16x512 ![] bcast_S_S512x16x512),
    TRef.binary b.v4 b.v3 b.v5 mulf,
    TRef.nullary b.c3 (constant S_ .f32 b.σ),
    TRef.unary b.c3 b.v6 (broadcastInDim S512x16x512 ![] bcast_S_S512x16x512),
    TRef.binary b.v5 b.v6 b.v7 Host.divf,
    TRef.unary b.v7 b.v8 Host.exp,
    TRef.nullary b.c4 (constant S_ .f32 0x00000000#32),
    TRef.binary b.v8 b.c4 b.v9 (fun x v => Host.reduceAdd x v reducesTo_S512x16x512_S512x16_d2 h_S_),
    TRef.unary b.v9 b.v10 Host.log1p,
    TRef.nullary b.c5 (constant S_ .f32 0x00000000#32),
    TRef.binary b.v10 b.c5 b.v11 (fun x v => Host.reduceAdd x v reducesTo_S512x16_S512_d1 h_S_) ]

theorem good (b : Bin) : Good (b.ops : List (HloOp τ sig (Elt F))) :=
  .mk' (by simp only [ops, List.Forall, nullary_bufs_sub, unary_bufs_sub, binary_bufs_sub, and_self]) rfl

/-- The references a bin writes. -/
abbrev refs (b : Bin) : List (Ref sig .tc) :=
  [b.c1.ref, b.v1.ref, b.v2.ref, b.v3.ref, b.c2.ref, b.v4.ref, b.v5.ref, b.c3.ref, b.v6.ref, b.v7.ref, b.v8.ref, b.c4.ref,
    b.v9.ref, b.v10.ref, b.c5.ref, b.v11.ref]

theorem keep (b : Bin) (W : Valuation τ sig (Elt F)) (r : Ref sig .tc) (h : r ∉ b.refs) :
    after b.ops W (no_index (Proc.devRef .tc r)) = W (Proc.devRef .tc r) := RefGood.keep rfl W h

/-- What a value must not be overwritten by before it is read: the references told apart. -/
abbrev Ok (b : Bin) : Prop :=
  b.M.ref ≠ b.c1.ref ∧ b.M.ref ≠ b.v1.ref ∧ b.v3.ref ≠ b.c2.ref ∧ b.v3.ref ≠ b.v4.ref ∧ b.v5.ref ≠ b.c3.ref ∧ b.v5.ref ≠ b.v6.ref
    ∧ b.v8.ref ≠ b.c4.ref ∧ b.v10.ref ≠ b.c5.ref

end Bin

def A1 : List (HloOp τ sig (Elt F)) :=
  [ nullary main_c (constantI S_ 32 0#32),
    unary main_c main_v0 (broadcastInDim S512x16 ![] bcast_S_S512x16),
    binary main_arg0 main_v0 main_v1 (cmpi .slt),
    nullary main_c_0 (constantI S_ 32 100000#32),
    unary main_c_0 main_v2 (broadcastInDim S512x16 ![] bcast_S_S512x16),
    binary main_arg0 main_v2 main_v3 addi,
    ternary main_v1 main_v3 main_arg0 main_v4 select,
    unary main_v4 main_v5 (broadcastInDim S512x16x1 ![0, 1] bcast_S512x16_S512x16x1_0_1),
    binary main_arg4 main_v5 main_v6 (fun x i => Host.gather gather_S100000x128_S512x16x1_S512x16x128_2_0_n_n_0_2_1128 x i),
    binary main_v6 main_v6 main_v7 mulf,
    nullary main_cst (constant S_ .f32 0x00000000#32),
    binary main_v7 main_cst main_v8 (fun x v => Host.reduceAdd x v reducesTo_S512x16x128_S512x16_d2 h_S_),
    unary main_v8 main_v9 (broadcastInDim S512x16x1 ![0, 1] bcast_S512x16_S512x16x1_0_1),
    unary main_v9 main_v10 Host.sqrt,
    nullary main_cst_1 (constant S_ .f32 0x2B8CBCCC#32),
    unary main_cst_1 main_v11 (broadcastInDim S512x16x1 ![] bcast_S_S512x16x1),
    binary main_v10 main_v11 main_v12 maximumf,
    unary main_v12 main_v13 (broadcastInDim S512x16x128 ![0, 1, 2] bcast_S512x16x1_S512x16x128_0_1_2),
    binary main_v6 main_v13 main_v14 Host.divf,
    nullary main_c_2 (constantI S_ 32 0#32),
    unary main_c_2 main_v15 (broadcastInDim S512x512 ![] bcast_S_S512x512),
    binary main_arg1 main_v15 main_v16 (cmpi .slt),
    nullary main_c_3 (constantI S_ 32 100000#32),
    unary main_c_3 main_v17 (broadcastInDim S512x512 ![] bcast_S_S512x512),
    binary main_arg1 main_v17 main_v18 addi,
    ternary main_v16 main_v18 main_arg1 main_v19 select,
    unary main_v19 main_v20 (broadcastInDim S512x512x1 ![0, 1] bcast_S512x512_S512x512x1_0_1),
    binary main_arg4 main_v20 main_v21 (fun x i => Host.gather gather_S100000x128_S512x512x1_S512x512x128_2_0_n_n_0_2_1128 x i),
    binary main_v21 main_v21 main_v22 mulf,
    nullary main_cst_4 (constant S_ .f32 0x00000000#32),
    binary main_v22 main_cst_4 main_v23 (fun x v => Host.reduceAdd x v reducesTo_S512x512x128_S512x512_d2 h_S_),
    unary main_v23 main_v24 (broadcastInDim S512x512x1 ![0, 1] bcast_S512x512_S512x512x1_0_1),
    unary main_v24 main_v25 Host.sqrt,
    nullary main_cst_5 (constant S_ .f32 0x2B8CBCCC#32),
    unary main_cst_5 main_v26 (broadcastInDim S512x512x1 ![] bcast_S_S512x512x1),
    binary main_v25 main_v26 main_v27 maximumf,
    unary main_v27 main_v28 (broadcastInDim S512x512x128 ![0, 1, 2] bcast_S512x512x1_S512x512x128_0_1_2),
    binary main_v21 main_v28 main_v29 Host.divf,
    binary main_v14 main_v29 main_v30 (fun l r => Host.dotGeneral dot_S512x16x128_S512x512x128_S512x16x512_2_2_1_1_0_0 none l r) ]
theorem A1_good : Good (A1 : List (HloOp τ sig (Elt F))) :=
  .mk' (by simp only [A1, List.Forall, nullary_bufs_sub, unary_bufs_sub, binary_bufs_sub, ternary_bufs_sub, and_self]) rfl
theorem A1_keep (W : Valuation τ sig (Elt F)) (r : Ref sig .tc) (h : r ∉ ([main_c, main_v0, main_v1, main_c_0, main_v2, main_v3, main_v4, main_v5, main_v6, main_v7, main_cst, main_v8, main_v9, main_v10, main_cst_1, main_v11, main_v12, main_v13, main_v14, main_c_2, main_v15, main_v16, main_c_3, main_v17, main_v18, main_v19, main_v20, main_v21, main_v22, main_cst_4, main_v23, main_v24, main_v25, main_cst_5, main_v26, main_v27, main_v28, main_v29, main_v30] : List (Ref sig .tc))) :
    after A1 W (no_index (Proc.devRef .tc r)) = W (Proc.devRef .tc r) := RefGood.keep rfl W h

def C1 : List (HloOp τ sig (Elt F)) :=
  [ unary main_v41 main_v262 (broadcastInDim S512x1 ![0] bcast_S512_S512x1_0),
    unary main_v52 main_v263 (broadcastInDim S512x1 ![0] bcast_S512_S512x1_0),
    unary main_v63 main_v264 (broadcastInDim S512x1 ![0] bcast_S512_S512x1_0),
    unary main_v74 main_v265 (broadcastInDim S512x1 ![0] bcast_S512_S512x1_0),
    unary main_v85 main_v266 (broadcastInDim S512x1 ![0] bcast_S512_S512x1_0),
    unary main_v96 main_v267 (broadcastInDim S512x1 ![0] bcast_S512_S512x1_0),
    unary main_v107 main_v268 (broadcastInDim S512x1 ![0] bcast_S512_S512x1_0),
    unary main_v118 main_v269 (broadcastInDim S512x1 ![0] bcast_S512_S512x1_0),
    unary main_v129 main_v270 (broadcastInDim S512x1 ![0] bcast_S512_S512x1_0),
    unary main_v140 main_v271 (broadcastInDim S512x1 ![0] bcast_S512_S512x1_0),
    unary main_v151 main_v272 (broadcastInDim S512x1 ![0] bcast_S512_S512x1_0),
    unary main_v162 main_v273 (broadcastInDim S512x1 ![0] bcast_S512_S512x1_0),
    unary main_v173 main_v274 (broadcastInDim S512x1 ![0] bcast_S512_S512x1_0),
    unary main_v184 main_v275 (broadcastInDim S512x1 ![0] bcast_S512_S512x1_0),
    unary main_v195 main_v276 (broadcastInDim S512x1 ![0] bcast_S512_S512x1_0),
    unary main_v206 main_v277 (broadcastInDim S512x1 ![0] bcast_S512_S512x1_0),
    unary main_v217 main_v278 (broadcastInDim S512x1 ![0] bcast_S512_S512x1_0),
    unary main_v228 main_v279 (broadcastInDim S512x1 ![0] bcast_S512_S512x1_0),
    unary main_v239 main_v280 (broadcastInDim S512x1 ![0] bcast_S512_S512x1_0),
    unary main_v250 main_v281 (broadcastInDim S512x1 ![0] bcast_S512_S512x1_0),
    unary main_v261 main_v282 (broadcastInDim S512x1 ![0] bcast_S512_S512x1_0) ]
theorem C1_good : Good (C1 : List (HloOp τ sig (Elt F))) :=
  .mk' (by simp only [C1, List.Forall, unary_bufs_sub, and_self]) rfl
theorem C1_keep (W : Valuation τ sig (Elt F)) (r : Ref sig .tc) (h : r ∉ ([main_v262, main_v263, main_v264, main_v265, main_v266, main_v267, main_v268, main_v269, main_v270, main_v271, main_v272, main_v273, main_v274, main_v275, main_v276, main_v277, main_v278, main_v279, main_v280, main_v281, main_v282] : List (Ref sig .tc))) :
    after C1 W (no_index (Proc.devRef .tc r)) = W (Proc.devRef .tc r) := RefGood.keep rfl W h

def K1 : List (HloOp τ sig (Elt F)) :=
  [ nary ![main_v262, main_v263, main_v264, main_v265, main_v266, main_v267, main_v268, main_v269, main_v270, main_v271, main_v272, main_v273, main_v274, main_v275, main_v276, main_v277] main_v283 (fun u => concatenate S512x16 1 [⟨S512x1, u 0⟩, ⟨S512x1, u 1⟩, ⟨S512x1, u 2⟩, ⟨S512x1, u 3⟩, ⟨S512x1, u 4⟩, ⟨S512x1, u 5⟩, ⟨S512x1, u 6⟩, ⟨S512x1, u 7⟩, ⟨S512x1, u 8⟩, ⟨S512x1, u 9⟩, ⟨S512x1, u 10⟩, ⟨S512x1, u 11⟩, ⟨S512x1, u 12⟩, ⟨S512x1, u 13⟩, ⟨S512x1, u 14⟩, ⟨S512x1, u 15⟩] concatenates_S512x1_S512x1_S512x1_S512x1_S512x1_S512x1_S512x1_S512x1_S512x1_S512x1_S512x1_S512x1_S512x1_S512x1_S512x1_S512x1_S512x16_d1),
    nary ![main_v278, main_v279, main_v280, main_v281, main_v282] main_v284 (fun u => concatenate S512x5 1 [⟨S512x1, u 0⟩, ⟨S512x1, u 1⟩, ⟨S512x1, u 2⟩, ⟨S512x1, u 3⟩, ⟨S512x1, u 4⟩] concatenates_S512x1_S512x1_S512x1_S512x1_S512x1_S512x5_d1),
    binary main_v283 main_v284 main_v285 (fun a b => concatenate S512x21 1 [⟨S512x16, a⟩, ⟨S512x5, b⟩] concatenates_S512x16_S512x5_S512x21_d1) ]
theorem K1_good : Good (K1 : List (HloOp τ sig (Elt F))) :=
  .mk' (by simp only [K1, List.Forall, binary_bufs_sub, nary_bufs_sub, and_self]) rfl
theorem K1_keep (W : Valuation τ sig (Elt F)) (r : Ref sig .tc) (h : r ∉ ([main_v283, main_v284, main_v285] : List (Ref sig .tc))) :
    after K1 W (no_index (Proc.devRef .tc r)) = W (Proc.devRef .tc r) := RefGood.keep rfl W h

def L1 : List (HloOp τ sig (Elt F)) :=
  [ binary main_v285 main_arg5 main_v286 (fun l r => Host.dotGeneral dot_S512x21_S21x10_S512x10_1_0_0_1_n_n none l r),
    unary main_arg6 main_v287 (broadcastInDim S1x10 ![1] bcast_S10_S1x10_1),
    unary main_v287 main_v288 (broadcastInDim S512x10 ![0, 1] bcast_S1x10_S512x10_0_1),
    binary main_v286 main_v288 main_v289 addf,
    TRef.nullary (TRef.of (T := ⟨S_, .f32⟩) main_call0_cst) (constant S_ .f32 0x00000000#32),
    TRef.unary (TRef.of (T := ⟨S_, .f32⟩) main_call0_cst) (TRef.of (T := ⟨S512x10, .f32⟩) main_call0_v0) (broadcastInDim S512x10 ![] bcast_S_S512x10),
    TRef.binary (TRef.of (T := ⟨S512x10, .f32⟩) main_v289) (TRef.of (T := ⟨S512x10, .f32⟩) main_call0_v0) (TRef.of (T := ⟨S512x10, .f32⟩) main_v290) maximumf,
    binary main_v290 main_arg7 main_v291 (fun l r => Host.dotGeneral dot_S512x10_S10x5_S512x5_1_0_0_1_n_n none l r),
    unary main_arg8 main_v292 (broadcastInDim S1x5 ![1] bcast_S5_S1x5_1),
    unary main_v292 main_v293 (broadcastInDim S512x5 ![0, 1] bcast_S1x5_S512x5_0_1),
    binary main_v291 main_v293 main_v294 addf,
    TRef.nullary (TRef.of (T := ⟨S_, .f32⟩) main_call1_cst) (constant S_ .f32 0x00000000#32),
    TRef.unary (TRef.of (T := ⟨S_, .f32⟩) main_call1_cst) (TRef.of (T := ⟨S512x5, .f32⟩) main_call1_v0) (broadcastInDim S512x5 ![] bcast_S_S512x5),
    TRef.binary (TRef.of (T := ⟨S512x5, .f32⟩) main_v294) (TRef.of (T := ⟨S512x5, .f32⟩) main_call1_v0) (TRef.of (T := ⟨S512x5, .f32⟩) main_v295) maximumf,
    binary main_v295 main_arg9 main_v296 (fun l r => Host.dotGeneral dot_S512x5_S5x1_S512x1_1_0_0_1_n_n none l r),
    unary main_arg10 main_v297 (broadcastInDim S1x1 ![1] bcast_S1_S1x1_1),
    unary main_v297 main_v298 (broadcastInDim S512x1 ![0, 1] bcast_S1x1_S512x1_0_1),
    binary main_v296 main_v298 main_v299 addf ]
theorem L1_good : Good (L1 : List (HloOp τ sig (Elt F))) :=
  .mk' (by simp only [L1, List.Forall, nullary_bufs_sub, unary_bufs_sub, binary_bufs_sub, and_self]) rfl
theorem L1_keep (W : Valuation τ sig (Elt F)) (r : Ref sig .tc) (h : r ∉ ([main_v286, main_v287, main_v288, main_v289, main_call0_cst, main_call0_v0, main_v290, main_v291, main_v292, main_v293, main_v294, main_call1_cst, main_call1_v0, main_v295, main_v296, main_v297, main_v298, main_v299] : List (Ref sig .tc))) :
    after L1 W (no_index (Proc.devRef .tc r)) = W (Proc.devRef .tc r) := RefGood.keep rfl W h

def A2a : List (HloOp τ sig (Elt F)) :=
  [ nullary main_c_111 (constantI S_ 32 0#32),
    unary main_c_111 main_v300 (broadcastInDim S512x16 ![] bcast_S_S512x16),
    binary main_arg2 main_v300 main_v301 (cmpi .slt),
    nullary main_c_112 (constantI S_ 32 100000#32),
    unary main_c_112 main_v302 (broadcastInDim S512x16 ![] bcast_S_S512x16),
    binary main_arg2 main_v302 main_v303 addi,
    ternary main_v301 main_v303 main_arg2 main_v304 select ]
theorem A2a_good : Good (A2a : List (HloOp τ sig (Elt F))) :=
  .mk' (by simp only [A2a, List.Forall, nullary_bufs_sub, unary_bufs_sub, binary_bufs_sub, ternary_bufs_sub, and_self]) rfl
theorem A2a_keep (W : Valuation τ sig (Elt F)) (r : Ref sig .tc) (h : r ∉ ([main_c_111, main_v300, main_v301, main_c_112, main_v302, main_v303, main_v304] : List (Ref sig .tc))) :
    after A2a W (no_index (Proc.devRef .tc r)) = W (Proc.devRef .tc r) := RefGood.keep rfl W h

def A2b : List (HloOp τ sig (Elt F)) :=
  [ unary main_v304 main_v305 (broadcastInDim S512x16x1 ![0, 1] bcast_S512x16_S512x16x1_0_1),
    binary main_arg4 main_v305 main_v306 (fun x i => Host.gather gather_S100000x128_S512x16x1_S512x16x128_2_0_n_n_0_2_1128 x i),
    binary main_v306 main_v306 main_v307 mulf,
    nullary main_cst_113 (constant S_ .f32 0x00000000#32),
    binary main_v307 main_cst_113 main_v308 (fun x v => Host.reduceAdd x v reducesTo_S512x16x128_S512x16_d2 h_S_),
    unary main_v308 main_v309 (broadcastInDim S512x16x1 ![0, 1] bcast_S512x16_S512x16x1_0_1),
    unary main_v309 main_v310 Host.sqrt,
    nullary main_cst_114 (constant S_ .f32 0x2B8CBCCC#32),
    unary main_cst_114 main_v311 (broadcastInDim S512x16x1 ![] bcast_S_S512x16x1),
    binary main_v310 main_v311 main_v312 maximumf,
    unary main_v312 main_v313 (broadcastInDim S512x16x128 ![0, 1, 2] bcast_S512x16x1_S512x16x128_0_1_2),
    binary main_v306 main_v313 main_v314 Host.divf,
    nullary main_c_115 (constantI S_ 32 0#32),
    unary main_c_115 main_v315 (broadcastInDim S512x512 ![] bcast_S_S512x512),
    binary main_arg3 main_v315 main_v316 (cmpi .slt),
    nullary main_c_116 (constantI S_ 32 100000#32),
    unary main_c_116 main_v317 (broadcastInDim S512x512 ![] bcast_S_S512x512),
    binary main_arg3 main_v317 main_v318 addi,
    ternary main_v316 main_v318 main_arg3 main_v319 select,
    unary main_v319 main_v320 (broadcastInDim S512x512x1 ![0, 1] bcast_S512x512_S512x512x1_0_1),
    binary main_arg4 main_v320 main_v321 (fun x i => Host.gather gather_S100000x128_S512x512x1_S512x512x128_2_0_n_n_0_2_1128 x i),
    binary main_v321 main_v321 main_v322 mulf,
    nullary main_cst_117 (constant S_ .f32 0x00000000#32),
    binary main_v322 main_cst_117 main_v323 (fun x v => Host.reduceAdd x v reducesTo_S512x512x128_S512x512_d2 h_S_),
    unary main_v323 main_v324 (broadcastInDim S512x512x1 ![0, 1] bcast_S512x512_S512x512x1_0_1),
    unary main_v324 main_v325 Host.sqrt,
    nullary main_cst_118 (constant S_ .f32 0x2B8CBCCC#32),
    unary main_cst_118 main_v326 (broadcastInDim S512x512x1 ![] bcast_S_S512x512x1),
    binary main_v325 main_v326 main_v327 maximumf,
    unary main_v327 main_v328 (broadcastInDim S512x512x128 ![0, 1, 2] bcast_S512x512x1_S512x512x128_0_1_2),
    binary main_v321 main_v328 main_v329 Host.divf,
    binary main_v314 main_v329 main_v330 (fun l r => Host.dotGeneral dot_S512x16x128_S512x512x128_S512x16x512_2_2_1_1_0_0 none l r) ]
theorem A2b_good : Good (A2b : List (HloOp τ sig (Elt F))) :=
  .mk' (by simp only [A2b, List.Forall, nullary_bufs_sub, unary_bufs_sub, binary_bufs_sub, ternary_bufs_sub, and_self]) rfl
theorem A2b_keep (W : Valuation τ sig (Elt F)) (r : Ref sig .tc) (h : r ∉ ([main_v305, main_v306, main_v307, main_cst_113, main_v308, main_v309, main_v310, main_cst_114, main_v311, main_v312, main_v313, main_v314, main_c_115, main_v315, main_v316, main_c_116, main_v317, main_v318, main_v319, main_v320, main_v321, main_v322, main_cst_117, main_v323, main_v324, main_v325, main_cst_118, main_v326, main_v327, main_v328, main_v329, main_v330] : List (Ref sig .tc))) :
    after A2b W (no_index (Proc.devRef .tc r)) = W (Proc.devRef .tc r) := RefGood.keep rfl W h

def C2 : List (HloOp τ sig (Elt F)) :=
  [ unary main_v341 main_v562 (broadcastInDim S512x1 ![0] bcast_S512_S512x1_0),
    unary main_v352 main_v563 (broadcastInDim S512x1 ![0] bcast_S512_S512x1_0),
    unary main_v363 main_v564 (broadcastInDim S512x1 ![0] bcast_S512_S512x1_0),
    unary main_v374 main_v565 (broadcastInDim S512x1 ![0] bcast_S512_S512x1_0),
    unary main_v385 main_v566 (broadcastInDim S512x1 ![0] bcast_S512_S512x1_0),
    unary main_v396 main_v567 (broadcastInDim S512x1 ![0] bcast_S512_S512x1_0),
    unary main_v407 main_v568 (broadcastInDim S512x1 ![0] bcast_S512_S512x1_0),
    unary main_v418 main_v569 (broadcastInDim S512x1 ![0] bcast_S512_S512x1_0),
    unary main_v429 main_v570 (broadcastInDim S512x1 ![0] bcast_S512_S512x1_0),
    unary main_v440 main_v571 (broadcastInDim S512x1 ![0] bcast_S512_S512x1_0),
    unary main_v451 main_v572 (broadcastInDim S512x1 ![0] bcast_S512_S512x1_0),
    unary main_v462 main_v573 (broadcastInDim S512x1 ![0] bcast_S512_S512x1_0),
    unary main_v473 main_v574 (broadcastInDim S512x1 ![0] bcast_S512_S512x1_0),
    unary main_v484 main_v575 (broadcastInDim S512x1 ![0] bcast_S512_S512x1_0),
    unary main_v495 main_v576 (broadcastInDim S512x1 ![0] bcast_S512_S512x1_0),
    unary main_v506 main_v577 (broadcastInDim S512x1 ![0] bcast_S512_S512x1_0),
    unary main_v517 main_v578 (broadcastInDim S512x1 ![0] bcast_S512_S512x1_0),
    unary main_v528 main_v579 (broadcastInDim S512x1 ![0] bcast_S512_S512x1_0),
    unary main_v539 main_v580 (broadcastInDim S512x1 ![0] bcast_S512_S512x1_0),
    unary main_v550 main_v581 (broadcastInDim S512x1 ![0] bcast_S512_S512x1_0),
    unary main_v561 main_v582 (broadcastInDim S512x1 ![0] bcast_S512_S512x1_0) ]
theorem C2_good : Good (C2 : List (HloOp τ sig (Elt F))) :=
  .mk' (by simp only [C2, List.Forall, unary_bufs_sub, and_self]) rfl
theorem C2_keep (W : Valuation τ sig (Elt F)) (r : Ref sig .tc) (h : r ∉ ([main_v562, main_v563, main_v564, main_v565, main_v566, main_v567, main_v568, main_v569, main_v570, main_v571, main_v572, main_v573, main_v574, main_v575, main_v576, main_v577, main_v578, main_v579, main_v580, main_v581, main_v582] : List (Ref sig .tc))) :
    after C2 W (no_index (Proc.devRef .tc r)) = W (Proc.devRef .tc r) := RefGood.keep rfl W h

def K2 : List (HloOp τ sig (Elt F)) :=
  [ nary ![main_v562, main_v563, main_v564, main_v565, main_v566, main_v567, main_v568, main_v569, main_v570, main_v571, main_v572, main_v573, main_v574, main_v575, main_v576, main_v577] main_v583 (fun u => concatenate S512x16 1 [⟨S512x1, u 0⟩, ⟨S512x1, u 1⟩, ⟨S512x1, u 2⟩, ⟨S512x1, u 3⟩, ⟨S512x1, u 4⟩, ⟨S512x1, u 5⟩, ⟨S512x1, u 6⟩, ⟨S512x1, u 7⟩, ⟨S512x1, u 8⟩, ⟨S512x1, u 9⟩, ⟨S512x1, u 10⟩, ⟨S512x1, u 11⟩, ⟨S512x1, u 12⟩, ⟨S512x1, u 13⟩, ⟨S512x1, u 14⟩, ⟨S512x1, u 15⟩] concatenates_S512x1_S512x1_S512x1_S512x1_S512x1_S512x1_S512x1_S512x1_S512x1_S512x1_S512x1_S512x1_S512x1_S512x1_S512x1_S512x1_S512x16_d1),
    nary ![main_v578, main_v579, main_v580, main_v581, main_v582] main_v584 (fun u => concatenate S512x5 1 [⟨S512x1, u 0⟩, ⟨S512x1, u 1⟩, ⟨S512x1, u 2⟩, ⟨S512x1, u 3⟩, ⟨S512x1, u 4⟩] concatenates_S512x1_S512x1_S512x1_S512x1_S512x1_S512x5_d1),
    binary main_v583 main_v584 main_v585 (fun a b => concatenate S512x21 1 [⟨S512x16, a⟩, ⟨S512x5, b⟩] concatenates_S512x16_S512x5_S512x21_d1) ]
theorem K2_good : Good (K2 : List (HloOp τ sig (Elt F))) :=
  .mk' (by simp only [K2, List.Forall, binary_bufs_sub, nary_bufs_sub, and_self]) rfl
theorem K2_keep (W : Valuation τ sig (Elt F)) (r : Ref sig .tc) (h : r ∉ ([main_v583, main_v584, main_v585] : List (Ref sig .tc))) :
    after K2 W (no_index (Proc.devRef .tc r)) = W (Proc.devRef .tc r) := RefGood.keep rfl W h

def L2 : List (HloOp τ sig (Elt F)) :=
  [ binary main_v585 main_arg5 main_v586 (fun l r => Host.dotGeneral dot_S512x21_S21x10_S512x10_1_0_0_1_n_n none l r),
    unary main_arg6 main_v587 (broadcastInDim S1x10 ![1] bcast_S10_S1x10_1),
    unary main_v587 main_v588 (broadcastInDim S512x10 ![0, 1] bcast_S1x10_S512x10_0_1),
    binary main_v586 main_v588 main_v589 addf,
    TRef.nullary (TRef.of (T := ⟨S_, .f32⟩) main_call2_cst) (constant S_ .f32 0x00000000#32),
    TRef.unary (TRef.of (T := ⟨S_, .f32⟩) main_call2_cst) (TRef.of (T := ⟨S512x10, .f32⟩) main_call2_v0) (broadcastInDim S512x10 ![] bcast_S_S512x10),
    TRef.binary (TRef.of (T := ⟨S512x10, .f32⟩) main_v589) (TRef.of (T := ⟨S512x10, .f32⟩) main_call2_v0) (TRef.of (T := ⟨S512x10, .f32⟩) main_v590) maximumf,
    binary main_v590 main_arg7 main_v591 (fun l r => Host.dotGeneral dot_S512x10_S10x5_S512x5_1_0_0_1_n_n none l r),
    unary main_arg8 main_v592 (broadcastInDim S1x5 ![1] bcast_S5_S1x5_1),
    unary main_v592 main_v593 (broadcastInDim S512x5 ![0, 1] bcast_S1x5_S512x5_0_1),
    binary main_v591 main_v593 main_v594 addf,
    TRef.nullary (TRef.of (T := ⟨S_, .f32⟩) main_call3_cst) (constant S_ .f32 0x00000000#32),
    TRef.unary (TRef.of (T := ⟨S_, .f32⟩) main_call3_cst) (TRef.of (T := ⟨S512x5, .f32⟩) main_call3_v0) (broadcastInDim S512x5 ![] bcast_S_S512x5),
    TRef.binary (TRef.of (T := ⟨S512x5, .f32⟩) main_v594) (TRef.of (T := ⟨S512x5, .f32⟩) main_call3_v0) (TRef.of (T := ⟨S512x5, .f32⟩) main_v595) maximumf,
    binary main_v595 main_arg9 main_v596 (fun l r => Host.dotGeneral dot_S512x5_S5x1_S512x1_1_0_0_1_n_n none l r),
    unary main_arg10 main_v597 (broadcastInDim S1x1 ![1] bcast_S1_S1x1_1),
    unary main_v597 main_v598 (broadcastInDim S512x1 ![0, 1] bcast_S1x1_S512x1_0_1),
    binary main_v596 main_v598 main_v599 addf ]
theorem L2_good : Good (L2 : List (HloOp τ sig (Elt F))) :=
  .mk' (by simp only [L2, List.Forall, nullary_bufs_sub, unary_bufs_sub, binary_bufs_sub, and_self]) rfl
theorem L2_keep (W : Valuation τ sig (Elt F)) (r : Ref sig .tc) (h : r ∉ ([main_v586, main_v587, main_v588, main_v589, main_call2_cst, main_call2_v0, main_v590, main_v591, main_v592, main_v593, main_v594, main_call3_cst, main_call3_v0, main_v595, main_v596, main_v597, main_v598, main_v599] : List (Ref sig .tc))) :
    after L2 W (no_index (Proc.devRef .tc r)) = W (Proc.devRef .tc r) := RefGood.keep rfl W h

def Z : List (HloOp τ sig (Elt F)) :=
  [ binary main_v299 main_v599 main_v600 subf,
    unary main_v600 main_v601 Host.negf,
    unary main_v601 main_v602 Host.exp,
    nullary main_cst_224 (constant S_ .f32 0x3F800000#32),
    unary main_cst_224 main_v603 (broadcastInDim S512x1 ![] bcast_S_S512x1),
    binary main_v603 main_v602 main_v604 addf,
    nullary main_cst_225 (constant S_ .f32 0x3F800000#32),
    unary main_cst_225 main_v605 (broadcastInDim S512x1 ![] bcast_S_S512x1),
    binary main_v605 main_v604 main_v606 Host.divf ]
theorem Z_good : Good (Z : List (HloOp τ sig (Elt F))) :=
  .mk' (by simp only [Z, List.Forall, nullary_bufs_sub, unary_bufs_sub, binary_bufs_sub, and_self]) rfl
theorem Z_keep (W : Valuation τ sig (Elt F)) (r : Ref sig .tc) (h : r ∉ ([main_v600, main_v601, main_v602, main_cst_224, main_v603, main_v604, main_cst_225, main_v605, main_v606] : List (Ref sig .tc))) :
    after Z W (no_index (Proc.devRef .tc r)) = W (Proc.devRef .tc r) := RefGood.keep rfl W h

abbrev F1_0 : Bin := ⟨.of main_v30, .of main_cst_6, .of main_v31, .of main_v32, .of main_v33, .of main_cst_7, .of main_v34, .of main_v35, .of main_cst_8, .of main_v36, .of main_v37, .of main_v38, .of main_cst_9, .of main_v39, .of main_v40, .of main_cst_10, .of main_v41, 0xBF733333#32, 0x3C23D70A#32⟩
abbrev F1_1 : Bin := ⟨.of main_v30, .of main_cst_11, .of main_v42, .of main_v43, .of main_v44, .of main_cst_12, .of main_v45, .of main_v46, .of main_cst_13, .of main_v47, .of main_v48, .of main_v49, .of main_cst_14, .of main_v50, .of main_v51, .of main_cst_15, .of main_v52, 0xBF59999A#32, 0x3C23D70A#32⟩
abbrev F1_2 : Bin := ⟨.of main_v30, .of main_cst_16, .of main_v53, .of main_v54, .of main_v55, .of main_cst_17, .of main_v56, .of main_v57, .of main_cst_18, .of main_v58, .of main_v59, .of main_v60, .of main_cst_19, .of main_v61, .of main_v62, .of main_cst_20, .of main_v63, 0xBF400000#32, 0x3C23D70A#32⟩
abbrev F1_3 : Bin := ⟨.of main_v30, .of main_cst_21, .of main_v64, .of main_v65, .of main_v66, .of main_cst_22, .of main_v67, .of main_v68, .of main_cst_23, .of main_v69, .of main_v70, .of main_v71, .of main_cst_24, .of main_v72, .of main_v73, .of main_cst_25, .of main_v74, 0xBF266666#32, 0x3C23D70A#32⟩
abbrev F1_4 : Bin := ⟨.of main_v30, .of main_cst_26, .of main_v75, .of main_v76, .of main_v77, .of main_cst_27, .of main_v78, .of main_v79, .of main_cst_28, .of main_v80, .of main_v81, .of main_v82, .of main_cst_29, .of main_v83, .of main_v84, .of main_cst_30, .of main_v85, 0xBF0CCCCD#32, 0x3C23D70A#32⟩
abbrev F1_5 : Bin := ⟨.of main_v30, .of main_cst_31, .of main_v86, .of main_v87, .of main_v88, .of main_cst_32, .of main_v89, .of main_v90, .of main_cst_33, .of main_v91, .of main_v92, .of main_v93, .of main_cst_34, .of main_v94, .of main_v95, .of main_cst_35, .of main_v96, 0xBEE66666#32, 0x3C23D70A#32⟩
abbrev F1_6 : Bin := ⟨.of main_v30, .of main_cst_36, .of main_v97, .of main_v98, .of main_v99, .of main_cst_37, .of main_v100, .of main_v101, .of main_cst_38, .of main_v102, .of main_v103, .of main_v104, .of main_cst_39, .of main_v105, .of main_v106, .of main_cst_40, .of main_v107, 0xBEB33333#32, 0x3C23D70A#32⟩
abbrev F1_7 : Bin := ⟨.of main_v30, .of main_cst_41, .of main_v108, .of main_v109, .of main_v110, .of main_cst_42, .of main_v111, .of main_v112, .of main_cst_43, .of main_v113, .of main_v114, .of main_v115, .of main_cst_44, .of main_v116, .of main_v117, .of main_cst_45, .of main_v118, 0xBE800000#32, 0x3C23D70A#32⟩
abbrev F1_8 : Bin := ⟨.of main_v30, .of main_cst_46, .of main_v119, .of main_v120, .of main_v121, .of main_cst_47, .of main_v122, .of main_v123, .of main_cst_48, .of main_v124, .of main_v125, .of main_v126, .of main_cst_49, .of main_v127, .of main_v128, .of main_cst_50, .of main_v129, 0xBE19999A#32, 0x3C23D70A#32⟩
abbrev F1_9 : Bin := ⟨.of main_v30, .of main_cst_51, .of main_v130, .of main_v131, .of main_v132, .of main_cst_52, .of main_v133, .of main_v134, .of main_cst_53, .of main_v135, .of main_v136, .of main_v137, .of main_cst_54, .of main_v138, .of main_v139, .of main_cst_55, .of main_v140, 0xBD4CCCCD#32, 0x3C23D70A#32⟩
abbrev F1_10 : Bin := ⟨.of main_v30, .of main_cst_56, .of main_v141, .of main_v142, .of main_v143, .of main_cst_57, .of main_v144, .of main_v145, .of main_cst_58, .of main_v146, .of main_v147, .of main_v148, .of main_cst_59, .of main_v149, .of main_v150, .of main_cst_60, .of main_v151, 0x3D4CCCCD#32, 0x3C23D70A#32⟩
abbrev F1_11 : Bin := ⟨.of main_v30, .of main_cst_61, .of main_v152, .of main_v153, .of main_v154, .of main_cst_62, .of main_v155, .of main_v156, .of main_cst_63, .of main_v157, .of main_v158, .of main_v159, .of main_cst_64, .of main_v160, .of main_v161, .of main_cst_65, .of main_v162, 0x3E19999A#32, 0x3C23D70A#32⟩
abbrev F1_12 : Bin := ⟨.of main_v30, .of main_cst_66, .of main_v163, .of main_v164, .of main_v165, .of main_cst_67, .of main_v166, .of main_v167, .of main_cst_68, .of main_v168, .of main_v169, .of main_v170, .of main_cst_69, .of main_v171, .of main_v172, .of main_cst_70, .of main_v173, 0x3E800000#32, 0x3C23D70A#32⟩
abbrev F1_13 : Bin := ⟨.of main_v30, .of main_cst_71, .of main_v174, .of main_v175, .of main_v176, .of main_cst_72, .of main_v177, .of main_v178, .of main_cst_73, .of main_v179, .of main_v180, .of main_v181, .of main_cst_74, .of main_v182, .of main_v183, .of main_cst_75, .of main_v184, 0x3EB33333#32, 0x3C23D70A#32⟩
abbrev F1_14 : Bin := ⟨.of main_v30, .of main_cst_76, .of main_v185, .of main_v186, .of main_v187, .of main_cst_77, .of main_v188, .of main_v189, .of main_cst_78, .of main_v190, .of main_v191, .of main_v192, .of main_cst_79, .of main_v193, .of main_v194, .of main_cst_80, .of main_v195, 0x3EE66666#32, 0x3C23D70A#32⟩
abbrev F1_15 : Bin := ⟨.of main_v30, .of main_cst_81, .of main_v196, .of main_v197, .of main_v198, .of main_cst_82, .of main_v199, .of main_v200, .of main_cst_83, .of main_v201, .of main_v202, .of main_v203, .of main_cst_84, .of main_v204, .of main_v205, .of main_cst_85, .of main_v206, 0x3F0CCCCD#32, 0x3C23D70A#32⟩
abbrev F1_16 : Bin := ⟨.of main_v30, .of main_cst_86, .of main_v207, .of main_v208, .of main_v209, .of main_cst_87, .of main_v210, .of main_v211, .of main_cst_88, .of main_v212, .of main_v213, .of main_v214, .of main_cst_89, .of main_v215, .of main_v216, .of main_cst_90, .of main_v217, 0x3F266666#32, 0x3C23D70A#32⟩
abbrev F1_17 : Bin := ⟨.of main_v30, .of main_cst_91, .of main_v218, .of main_v219, .of main_v220, .of main_cst_92, .of main_v221, .of main_v222, .of main_cst_93, .of main_v223, .of main_v224, .of main_v225, .of main_cst_94, .of main_v226, .of main_v227, .of main_cst_95, .of main_v228, 0x3F400000#32, 0x3C23D70A#32⟩
abbrev F1_18 : Bin := ⟨.of main_v30, .of main_cst_96, .of main_v229, .of main_v230, .of main_v231, .of main_cst_97, .of main_v232, .of main_v233, .of main_cst_98, .of main_v234, .of main_v235, .of main_v236, .of main_cst_99, .of main_v237, .of main_v238, .of main_cst_100, .of main_v239, 0x3F59999A#32, 0x3C23D70A#32⟩
abbrev F1_19 : Bin := ⟨.of main_v30, .of main_cst_101, .of main_v240, .of main_v241, .of main_v242, .of main_cst_102, .of main_v243, .of main_v244, .of main_cst_103, .of main_v245, .of main_v246, .of main_v247, .of main_cst_104, .of main_v248, .of main_v249, .of main_cst_105, .of main_v250, 0x3F733333#32, 0x3C23D70A#32⟩
abbrev F1_20 : Bin := ⟨.of main_v30, .of main_cst_106, .of main_v251, .of main_v252, .of main_v253, .of main_cst_107, .of main_v254, .of main_v255, .of main_cst_108, .of main_v256, .of main_v257, .of main_v258, .of main_cst_109, .of main_v259, .of main_v260, .of main_cst_110, .of main_v261, 0x3F800000#32, 0x358637BD#32⟩
abbrev F2_0 : Bin := ⟨.of main_v330, .of main_cst_119, .of main_v331, .of main_v332, .of main_v333, .of main_cst_120, .of main_v334, .of main_v335, .of main_cst_121, .of main_v336, .of main_v337, .of main_v338, .of main_cst_122, .of main_v339, .of main_v340, .of main_cst_123, .of main_v341, 0xBF733333#32, 0x3C23D70A#32⟩
abbrev F2_1 : Bin := ⟨.of main_v330, .of main_cst_124, .of main_v342, .of main_v343, .of main_v344, .of main_cst_125, .of main_v345, .of main_v346, .of main_cst_126, .of main_v347, .of main_v348, .of main_v349, .of main_cst_127, .of main_v350, .of main_v351, .of main_cst_128, .of main_v352, 0xBF59999A#32, 0x3C23D70A#32⟩
abbrev F2_2 : Bin := ⟨.of main_v330, .of main_cst_129, .of main_v353, .of main_v354, .of main_v355, .of main_cst_130, .of main_v356, .of main_v357, .of main_cst_131, .of main_v358, .of main_v359, .of main_v360, .of main_cst_132, .of main_v361, .of main_v362, .of main_cst_133, .of main_v363, 0xBF400000#32, 0x3C23D70A#32⟩
abbrev F2_3 : Bin := ⟨.of main_v330, .of main_cst_134, .of main_v364, .of main_v365, .of main_v366, .of main_cst_135, .of main_v367, .of main_v368, .of main_cst_136, .of main_v369, .of main_v370, .of main_v371, .of main_cst_137, .of main_v372, .of main_v373, .of main_cst_138, .of main_v374, 0xBF266666#32, 0x3C23D70A#32⟩
abbrev F2_4 : Bin := ⟨.of main_v330, .of main_cst_139, .of main_v375, .of main_v376, .of main_v377, .of main_cst_140, .of main_v378, .of main_v379, .of main_cst_141, .of main_v380, .of main_v381, .of main_v382, .of main_cst_142, .of main_v383, .of main_v384, .of main_cst_143, .of main_v385, 0xBF0CCCCD#32, 0x3C23D70A#32⟩
abbrev F2_5 : Bin := ⟨.of main_v330, .of main_cst_144, .of main_v386, .of main_v387, .of main_v388, .of main_cst_145, .of main_v389, .of main_v390, .of main_cst_146, .of main_v391, .of main_v392, .of main_v393, .of main_cst_147, .of main_v394, .of main_v395, .of main_cst_148, .of main_v396, 0xBEE66666#32, 0x3C23D70A#32⟩
abbrev F2_6 : Bin := ⟨.of main_v330, .of main_cst_149, .of main_v397, .of main_v398, .of main_v399, .of main_cst_150, .of main_v400, .of main_v401, .of main_cst_151, .of main_v402, .of main_v403, .of main_v404, .of main_cst_152, .of main_v405, .of main_v406, .of main_cst_153, .of main_v407, 0xBEB33333#32, 0x3C23D70A#32⟩
abbrev F2_7 : Bin := ⟨.of main_v330, .of main_cst_154, .of main_v408, .of main_v409, .of main_v410, .of main_cst_155, .of main_v411, .of main_v412, .of main_cst_156, .of main_v413, .of main_v414, .of main_v415, .of main_cst_157, .of main_v416, .of main_v417, .of main_cst_158, .of main_v418, 0xBE800000#32, 0x3C23D70A#32⟩
abbrev F2_8 : Bin := ⟨.of main_v330, .of main_cst_159, .of main_v419, .of main_v420, .of main_v421, .of main_cst_160, .of main_v422, .of main_v423, .of main_cst_161, .of main_v424, .of main_v425, .of main_v426, .of main_cst_162, .of main_v427, .of main_v428, .of main_cst_163, .of main_v429, 0xBE19999A#32, 0x3C23D70A#32⟩
abbrev F2_9 : Bin := ⟨.of main_v330, .of main_cst_164, .of main_v430, .of main_v431, .of main_v432, .of main_cst_165, .of main_v433, .of main_v434, .of main_cst_166, .of main_v435, .of main_v436, .of main_v437, .of main_cst_167, .of main_v438, .of main_v439, .of main_cst_168, .of main_v440, 0xBD4CCCCD#32, 0x3C23D70A#32⟩
abbrev F2_10 : Bin := ⟨.of main_v330, .of main_cst_169, .of main_v441, .of main_v442, .of main_v443, .of main_cst_170, .of main_v444, .of main_v445, .of main_cst_171, .of main_v446, .of main_v447, .of main_v448, .of main_cst_172, .of main_v449, .of main_v450, .of main_cst_173, .of main_v451, 0x3D4CCCCD#32, 0x3C23D70A#32⟩
abbrev F2_11 : Bin := ⟨.of main_v330, .of main_cst_174, .of main_v452, .of main_v453, .of main_v454, .of main_cst_175, .of main_v455, .of main_v456, .of main_cst_176, .of main_v457, .of main_v458, .of main_v459, .of main_cst_177, .of main_v460, .of main_v461, .of main_cst_178, .of main_v462, 0x3E19999A#32, 0x3C23D70A#32⟩
abbrev F2_12 : Bin := ⟨.of main_v330, .of main_cst_179, .of main_v463, .of main_v464, .of main_v465, .of main_cst_180, .of main_v466, .of main_v467, .of main_cst_181, .of main_v468, .of main_v469, .of main_v470, .of main_cst_182, .of main_v471, .of main_v472, .of main_cst_183, .of main_v473, 0x3E800000#32, 0x3C23D70A#32⟩
abbrev F2_13 : Bin := ⟨.of main_v330, .of main_cst_184, .of main_v474, .of main_v475, .of main_v476, .of main_cst_185, .of main_v477, .of main_v478, .of main_cst_186, .of main_v479, .of main_v480, .of main_v481, .of main_cst_187, .of main_v482, .of main_v483, .of main_cst_188, .of main_v484, 0x3EB33333#32, 0x3C23D70A#32⟩
abbrev F2_14 : Bin := ⟨.of main_v330, .of main_cst_189, .of main_v485, .of main_v486, .of main_v487, .of main_cst_190, .of main_v488, .of main_v489, .of main_cst_191, .of main_v490, .of main_v491, .of main_v492, .of main_cst_192, .of main_v493, .of main_v494, .of main_cst_193, .of main_v495, 0x3EE66666#32, 0x3C23D70A#32⟩
abbrev F2_15 : Bin := ⟨.of main_v330, .of main_cst_194, .of main_v496, .of main_v497, .of main_v498, .of main_cst_195, .of main_v499, .of main_v500, .of main_cst_196, .of main_v501, .of main_v502, .of main_v503, .of main_cst_197, .of main_v504, .of main_v505, .of main_cst_198, .of main_v506, 0x3F0CCCCD#32, 0x3C23D70A#32⟩
abbrev F2_16 : Bin := ⟨.of main_v330, .of main_cst_199, .of main_v507, .of main_v508, .of main_v509, .of main_cst_200, .of main_v510, .of main_v511, .of main_cst_201, .of main_v512, .of main_v513, .of main_v514, .of main_cst_202, .of main_v515, .of main_v516, .of main_cst_203, .of main_v517, 0x3F266666#32, 0x3C23D70A#32⟩
abbrev F2_17 : Bin := ⟨.of main_v330, .of main_cst_204, .of main_v518, .of main_v519, .of main_v520, .of main_cst_205, .of main_v521, .of main_v522, .of main_cst_206, .of main_v523, .of main_v524, .of main_v525, .of main_cst_207, .of main_v526, .of main_v527, .of main_cst_208, .of main_v528, 0x3F400000#32, 0x3C23D70A#32⟩
abbrev F2_18 : Bin := ⟨.of main_v330, .of main_cst_209, .of main_v529, .of main_v530, .of main_v531, .of main_cst_210, .of main_v532, .of main_v533, .of main_cst_211, .of main_v534, .of main_v535, .of main_v536, .of main_cst_212, .of main_v537, .of main_v538, .of main_cst_213, .of main_v539, 0x3F59999A#32, 0x3C23D70A#32⟩
abbrev F2_19 : Bin := ⟨.of main_v330, .of main_cst_214, .of main_v540, .of main_v541, .of main_v542, .of main_cst_215, .of main_v543, .of main_v544, .of main_cst_216, .of main_v545, .of main_v546, .of main_v547, .of main_cst_217, .of main_v548, .of main_v549, .of main_cst_218, .of main_v550, 0x3F733333#32, 0x3C23D70A#32⟩
abbrev F2_20 : Bin := ⟨.of main_v330, .of main_cst_219, .of main_v551, .of main_v552, .of main_v553, .of main_cst_220, .of main_v554, .of main_v555, .of main_cst_221, .of main_v556, .of main_v557, .of main_v558, .of main_cst_222, .of main_v559, .of main_v560, .of main_cst_223, .of main_v561, 0x3F800000#32, 0x358637BD#32⟩

def w0 : List (HloOp τ sig (Elt F)) := A1 ++ (F1_0.ops ++ F1_1.ops.take 5)
theorem w0_good : Good (w0 : List (HloOp τ sig (Elt F))) := A1_good.append (F1_0.good.append (F1_1.good.take 5))
theorem main_part0_eq (c : Dev nD) : main_part0 (F := F) c = seq w0 := rfl

def w1 : List (HloOp τ sig (Elt F)) := F1_1.ops.drop 5 ++ (F1_2.ops ++ (F1_3.ops ++ (F1_4.ops ++ F1_5.ops.take 1)))
theorem w1_good : Good (w1 : List (HloOp τ sig (Elt F))) := (F1_1.good.drop 5).append (F1_2.good.append (F1_3.good.append (F1_4.good.append (F1_5.good.take 1))))
theorem main_part1_eq (c : Dev nD) : main_part1 (F := F) c = seq w1 := rfl

def w2 : List (HloOp τ sig (Elt F)) := F1_5.ops.drop 1 ++ (F1_6.ops ++ (F1_7.ops ++ F1_8.ops.take 13))
theorem w2_good : Good (w2 : List (HloOp τ sig (Elt F))) := (F1_5.good.drop 1).append (F1_6.good.append (F1_7.good.append (F1_8.good.take 13)))
theorem main_part2_eq (c : Dev nD) : main_part2 (F := F) c = seq w2 := rfl

def w3 : List (HloOp τ sig (Elt F)) := F1_8.ops.drop 13 ++ (F1_9.ops ++ (F1_10.ops ++ (F1_11.ops ++ F1_12.ops.take 9)))
theorem w3_good : Good (w3 : List (HloOp τ sig (Elt F))) := (F1_8.good.drop 13).append (F1_9.good.append (F1_10.good.append (F1_11.good.append (F1_12.good.take 9))))
theorem main_part3_eq (c : Dev nD) : main_part3 (F := F) c = seq w3 := rfl

def w4 : List (HloOp τ sig (Elt F)) := F1_12.ops.drop 9 ++ (F1_13.ops ++ (F1_14.ops ++ (F1_15.ops ++ F1_16.ops.take 5)))
theorem w4_good : Good (w4 : List (HloOp τ sig (Elt F))) := (F1_12.good.drop 9).append (F1_13.good.append (F1_14.good.append (F1_15.good.append (F1_16.good.take 5))))
theorem main_part4_eq (c : Dev nD) : main_part4 (F := F) c = seq w4 := rfl

def w5 : List (HloOp τ sig (Elt F)) := F1_16.ops.drop 5 ++ (F1_17.ops ++ (F1_18.ops ++ (F1_19.ops ++ F1_20.ops.take 1)))
theorem w5_good : Good (w5 : List (HloOp τ sig (Elt F))) := (F1_16.good.drop 5).append (F1_17.good.append (F1_18.good.append (F1_19.good.append (F1_20.good.take 1))))
theorem main_part5_eq (c : Dev nD) : main_part5 (F := F) c = seq w5 := rfl

def w6 : List (HloOp τ sig (Elt F)) := F1_20.ops.drop 1 ++ (C1 ++ (K1 ++ (L1 ++ A2a)))
theorem w6_good : Good (w6 : List (HloOp τ sig (Elt F))) := (F1_20.good.drop 1).append (C1_good.append (K1_good.append (L1_good.append A2a_good)))
theorem main_part6_eq (c : Dev nD) : main_part6 (F := F) c = seq w6 := rfl

def w7 : List (HloOp τ sig (Elt F)) := A2b ++ (F2_0.ops ++ F2_1.ops.take 12)
theorem w7_good : Good (w7 : List (HloOp τ sig (Elt F))) := A2b_good.append (F2_0.good.append (F2_1.good.take 12))
theorem main_part7_eq (c : Dev nD) : main_part7 (F := F) c = seq w7 := rfl

def w8 : List (HloOp τ sig (Elt F)) := F2_1.ops.drop 12 ++ (F2_2.ops ++ (F2_3.ops ++ (F2_4.ops ++ F2_5.ops.take 8)))
theorem w8_good : Good (w8 : List (HloOp τ sig (Elt F))) := (F2_1.good.drop 12).append (F2_2.good.append (F2_3.good.append (F2_4.good.append (F2_5.good.take 8))))
theorem main_part8_eq (c : Dev nD) : main_part8 (F := F) c = seq w8 := rfl

def w9 : List (HloOp τ sig (Elt F)) := F2_5.ops.drop 8 ++ (F2_6.ops ++ (F2_7.ops ++ (F2_8.ops ++ F2_9.ops.take 4)))
theorem w9_good : Good (w9 : List (HloOp τ sig (Elt F))) := (F2_5.good.drop 8).append (F2_6.good.append (F2_7.good.append (F2_8.good.append (F2_9.good.take 4))))
theorem main_part9_eq (c : Dev nD) : main_part9 (F := F) c = seq w9 := rfl

def w10 : List (HloOp τ sig (Elt F)) := F2_9.ops.drop 4 ++ (F2_10.ops ++ (F2_11.ops ++ F2_12.ops))
theorem w10_good : Good (w10 : List (HloOp τ sig (Elt F))) := (F2_9.good.drop 4).append (F2_10.good.append (F2_11.good.append F2_12.good))
theorem main_part10_eq (c : Dev nD) : main_part10 (F := F) c = seq w10 := rfl

def w11 : List (HloOp τ sig (Elt F)) := F2_13.ops ++ (F2_14.ops ++ (F2_15.ops ++ F2_16.ops.take 12))
theorem w11_good : Good (w11 : List (HloOp τ sig (Elt F))) := F2_13.good.append (F2_14.good.append (F2_15.good.append (F2_16.good.take 12)))
theorem main_part11_eq (c : Dev nD) : main_part11 (F := F) c = seq w11 := rfl

def w12 : List (HloOp τ sig (Elt F)) := F2_16.ops.drop 12 ++ (F2_17.ops ++ (F2_18.ops ++ (F2_19.ops ++ F2_20.ops.take 8)))
theorem w12_good : Good (w12 : List (HloOp τ sig (Elt F))) := (F2_16.good.drop 12).append (F2_17.good.append (F2_18.good.append (F2_19.good.append (F2_20.good.take 8))))
theorem main_part12_eq (c : Dev nD) : main_part12 (F := F) c = seq w12 := rfl

def w13 : List (HloOp τ sig (Elt F)) := F2_20.ops.drop 8 ++ (C2 ++ (K2 ++ (L2 ++ Z)))
theorem w13_good : Good (w13 : List (HloOp τ sig (Elt F))) := (F2_20.good.drop 8).append (C2_good.append (K2_good.append (L2_good.append Z_good)))
theorem main_part13_eq (c : Dev nD) : main_part13 (F := F) c = seq w13 := rfl

def opsAll : List (HloOp τ sig (Elt F)) := w0 ++ (w1 ++ (w2 ++ (w3 ++ (w4 ++ (w5 ++ (w6 ++ (w7 ++ (w8 ++ (w9 ++ (w10 ++ (w11 ++ (w12 ++ w13))))))))))))
theorem opsAll_good : Good (opsAll : List (HloOp τ sig (Elt F))) := w0_good.append (w1_good.append (w2_good.append (w3_good.append (w4_good.append (w5_good.append (w6_good.append (w7_good.append (w8_good.append (w9_good.append (w10_good.append (w11_good.append (w12_good.append w13_good))))))))))))

end Cert.RefOps

end
-- ==== Proof.RefRun.lean ====
/-
  The reference's run: every weakly fair execution of its straight line of host operations terminates, the result array
  is `Cert.RSide.HOut` of the lookups and weights as launched, and the arguments end unchanged. The contents after the
  whole line are read piece by piece: what a piece leaves in the reference read later, and that it keeps the others.
-/
import proofs.«417505_j37409165148283_1_alg».proof.Proof.RSide
import proofs.«417505_j37409165148283_1_alg».proof.Proof.RefOps
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.RefOps

variable {F : FTy → Type} [FloatOps F]

/-- A bin's operations leave `feat μ σ` of the cosine array in the last reference they write. -/
theorem bin_val (b : Bin) (W : Valuation τ sig (Elt F)) (h : b.Ok) :
    after b.ops W (no_index (Proc.devRef .tc b.v11.ref))
      = b.v11.toBuf (Cert.RSide.feat b.μ b.σ (b.M.ofBuf (W (Proc.devRef .tc b.M.ref)))) := by
  obtain ⟨h1, h2, h3, h4, h5, h6, h7, h8⟩ := h
  simp (disch := assumption) only [Bin.ops, after_cons, after_nil, nullary_result', unary_result', binary_result',
    nullary_result_ne', unary_result_ne', binary_result_ne']
  simp only [TRef.ofBuf, TRef.toBuf, cast_cast, cast_eq]
  rfl

/-- The first pair's lookups, normalisations and product leave its cosine array. -/
theorem A1_val (W : Valuation τ sig (Elt F)) :
    after A1 W (no_index (Proc.devRef .tc main_v30))
      = Cert.RSide.mm (Cert.RSide.nrm16 (Cert.RSide.gath16 (W (Proc.devRef .tc main_arg4)) (W (Proc.devRef .tc main_arg0))))
          (Cert.RSide.nrm512 (Cert.RSide.gath512 (W (Proc.devRef .tc main_arg4)) (W (Proc.devRef .tc main_arg1)))) := by
  simp only [A1]
  after_results_simp
  rfl

theorem A2_val (W : Valuation τ sig (Elt F)) :
    after A2b (after A2a W) (no_index (Proc.devRef .tc main_v330))
      = Cert.RSide.mm (Cert.RSide.nrm16 (Cert.RSide.gath16 (W (Proc.devRef .tc main_arg4)) (W (Proc.devRef .tc main_arg2))))
          (Cert.RSide.nrm512 (Cert.RSide.gath512 (W (Proc.devRef .tc main_arg4)) (W (Proc.devRef .tc main_arg3)))) := by
  rw [← after_append]
  simp only [A2a, A2b, List.cons_append, List.nil_append]
  after_results_simp
  rfl

/-- 21 columns side by side: sixteen joined, five joined, then the two. -/
def cat21 (c0 c1 c2 c3 c4 c5 c6 c7 c8 c9 c10 c11 c12 c13 c14 c15 c16 c17 c18 c19 c20 : FVec F S512x1 .f32) : FVec F S512x21 .f32 :=
  concatenate S512x21 1 [⟨S512x16, (concatenate S512x16 1 [⟨S512x1, c0⟩, ⟨S512x1, c1⟩, ⟨S512x1, c2⟩, ⟨S512x1, c3⟩, ⟨S512x1, c4⟩, ⟨S512x1, c5⟩, ⟨S512x1, c6⟩, ⟨S512x1, c7⟩, ⟨S512x1, c8⟩, ⟨S512x1, c9⟩, ⟨S512x1, c10⟩, ⟨S512x1, c11⟩, ⟨S512x1, c12⟩, ⟨S512x1, c13⟩, ⟨S512x1, c14⟩, ⟨S512x1, c15⟩] concatenates_S512x1_S512x1_S512x1_S512x1_S512x1_S512x1_S512x1_S512x1_S512x1_S512x1_S512x1_S512x1_S512x1_S512x1_S512x1_S512x1_S512x16_d1)⟩, ⟨S512x5, (concatenate S512x5 1 [⟨S512x1, c16⟩, ⟨S512x1, c17⟩, ⟨S512x1, c18⟩, ⟨S512x1, c19⟩, ⟨S512x1, c20⟩] concatenates_S512x1_S512x1_S512x1_S512x1_S512x1_S512x5_d1)⟩] concatenates_S512x16_S512x5_S512x21_d1

theorem K1_val (W : Valuation τ sig (Elt F)) :
    after K1 W (no_index (Proc.devRef .tc main_v285))
      = cat21 (W (Proc.devRef .tc main_v262)) (W (Proc.devRef .tc main_v263)) (W (Proc.devRef .tc main_v264)) (W (Proc.devRef .tc main_v265)) (W (Proc.devRef .tc main_v266)) (W (Proc.devRef .tc main_v267)) (W (Proc.devRef .tc main_v268)) (W (Proc.devRef .tc main_v269)) (W (Proc.devRef .tc main_v270)) (W (Proc.devRef .tc main_v271)) (W (Proc.devRef .tc main_v272)) (W (Proc.devRef .tc main_v273)) (W (Proc.devRef .tc main_v274)) (W (Proc.devRef .tc main_v275)) (W (Proc.devRef .tc main_v276)) (W (Proc.devRef .tc main_v277)) (W (Proc.devRef .tc main_v278)) (W (Proc.devRef .tc main_v279)) (W (Proc.devRef .tc main_v280)) (W (Proc.devRef .tc main_v281)) (W (Proc.devRef .tc main_v282)) := by
  simp only [K1]
  rfl

theorem K2_val (W : Valuation τ sig (Elt F)) :
    after K2 W (no_index (Proc.devRef .tc main_v585))
      = cat21 (W (Proc.devRef .tc main_v562)) (W (Proc.devRef .tc main_v563)) (W (Proc.devRef .tc main_v564)) (W (Proc.devRef .tc main_v565)) (W (Proc.devRef .tc main_v566)) (W (Proc.devRef .tc main_v567)) (W (Proc.devRef .tc main_v568)) (W (Proc.devRef .tc main_v569)) (W (Proc.devRef .tc main_v570)) (W (Proc.devRef .tc main_v571)) (W (Proc.devRef .tc main_v572)) (W (Proc.devRef .tc main_v573)) (W (Proc.devRef .tc main_v574)) (W (Proc.devRef .tc main_v575)) (W (Proc.devRef .tc main_v576)) (W (Proc.devRef .tc main_v577)) (W (Proc.devRef .tc main_v578)) (W (Proc.devRef .tc main_v579)) (W (Proc.devRef .tc main_v580)) (W (Proc.devRef .tc main_v581)) (W (Proc.devRef .tc main_v582)) := by
  simp only [K2]
  rfl

/-- The three layers leave the score of the joined bins. -/
theorem L1_val (W : Valuation τ sig (Elt F)) :
    after L1 W (no_index (Proc.devRef .tc main_v299))
      = Cert.RSide.mlp (W (Proc.devRef .tc main_v285)) (W (Proc.devRef .tc main_arg5)) (W (Proc.devRef .tc main_arg6))
          (W (Proc.devRef .tc main_arg7)) (W (Proc.devRef .tc main_arg8)) (W (Proc.devRef .tc main_arg9)) (W (Proc.devRef .tc main_arg10)) := by
  simp only [L1]
  after_results_simp
  simp only [TRef.ofBuf, TRef.toBuf, cast_eq]
  rfl

theorem L2_val (W : Valuation τ sig (Elt F)) :
    after L2 W (no_index (Proc.devRef .tc main_v599))
      = Cert.RSide.mlp (W (Proc.devRef .tc main_v585)) (W (Proc.devRef .tc main_arg5)) (W (Proc.devRef .tc main_arg6))
          (W (Proc.devRef .tc main_arg7)) (W (Proc.devRef .tc main_arg8)) (W (Proc.devRef .tc main_arg9)) (W (Proc.devRef .tc main_arg10)) := by
  simp only [L2]
  after_results_simp
  simp only [TRef.ofBuf, TRef.toBuf, cast_eq]
  rfl

/-- The closing operations: `1 / (1 + exp (-(score₁ - score₂)))`. -/
theorem Z_val (W : Valuation τ sig (Elt F)) :
    after Z W (no_index (Proc.devRef .tc main_v606))
      = Host.divf (broadcastInDim S512x1 ![] bcast_S_S512x1 (constant S_ .f32 0x3F800000#32))
          (addf (broadcastInDim S512x1 ![] bcast_S_S512x1 (constant S_ .f32 0x3F800000#32))
            (Host.exp (Host.negf (subf (W (Proc.devRef .tc main_v299) : FVec F S512x1 .f32) (W (Proc.devRef .tc main_v599)))))) := by
  simp only [Z]
  after_results_simp

/-- The program is the line of its operations, window by window. -/
theorem main_eq (c : Dev nD) : main (F := F) c = seq opsAll := by
  simp only [opsAll, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c]
  rfl

theorem scopedRefs_eq : (Finset.univ.filter fun b : Ref sig .tc => b.isScoped) = ∅ := by decide
theorem scopedSems_eq : (Finset.univ.filter fun sm : SemLoc sig => sm.isScoped .tc) = ∅ := by decide

/-- No operation writes an argument. -/
theorem args_keep (V : Valuation τ sig (Elt F)) :
    after opsAll V (Proc.devRef .tc main_arg0) = V (Proc.devRef .tc main_arg0)
    ∧ after opsAll V (Proc.devRef .tc main_arg1) = V (Proc.devRef .tc main_arg1)
    ∧ after opsAll V (Proc.devRef .tc main_arg2) = V (Proc.devRef .tc main_arg2)
    ∧ after opsAll V (Proc.devRef .tc main_arg3) = V (Proc.devRef .tc main_arg3)
    ∧ after opsAll V (Proc.devRef .tc main_arg4) = V (Proc.devRef .tc main_arg4)
    ∧ after opsAll V (Proc.devRef .tc main_arg5) = V (Proc.devRef .tc main_arg5)
    ∧ after opsAll V (Proc.devRef .tc main_arg6) = V (Proc.devRef .tc main_arg6)
    ∧ after opsAll V (Proc.devRef .tc main_arg7) = V (Proc.devRef .tc main_arg7)
    ∧ after opsAll V (Proc.devRef .tc main_arg8) = V (Proc.devRef .tc main_arg8)
    ∧ after opsAll V (Proc.devRef .tc main_arg9) = V (Proc.devRef .tc main_arg9)
    ∧ after opsAll V (Proc.devRef .tc main_arg10) = V (Proc.devRef .tc main_arg10) := by
  simp only [opsAll, w0, w1, w2, w3, w4, w5, w6, w7, w8, w9, w10, w11, w12, w13, after_append, RefGood.after_drop_take]
  refine ⟨?_, ?_, ?_, ?_, ?_, ?_, ?_, ?_, ?_, ?_, ?_⟩ <;>
  simp (disch := decide) only [A1_keep, C1_keep, K1_keep, L1_keep, A2a_keep, A2b_keep, C2_keep, K2_keep, L2_keep, Z_keep, Bin.keep]

/-- The result reference after the whole line, from any contents. -/
theorem out_val (V : Valuation τ sig (Elt F)) :
    after opsAll V (Proc.devRef .tc main_v606)
      = Cert.RSide.HOut (F := F) (Cert.RSide.gath16 (V (Proc.devRef .tc main_arg4)) (V (Proc.devRef .tc main_arg0)))
          (Cert.RSide.gath512 (V (Proc.devRef .tc main_arg4)) (V (Proc.devRef .tc main_arg1)))
          (Cert.RSide.gath16 (V (Proc.devRef .tc main_arg4)) (V (Proc.devRef .tc main_arg2)))
          (Cert.RSide.gath512 (V (Proc.devRef .tc main_arg4)) (V (Proc.devRef .tc main_arg3)))
          (V (Proc.devRef .tc main_arg5)) (V (Proc.devRef .tc main_arg6)) (V (Proc.devRef .tc main_arg7)) (V (Proc.devRef .tc main_arg8))
          (V (Proc.devRef .tc main_arg9)) (V (Proc.devRef .tc main_arg10)) := by
  simp only [opsAll, w0, w1, w2, w3, w4, w5, w6, w7, w8, w9, w10, w11, w12, w13, after_append, RefGood.after_drop_take]
  simp (disch := decide) only [Z_val, L1_val, L2_val, K1_val, K2_val, A1_val, A2_val, bin_val, TRef.ofBuf, TRef.toBuf, cast_eq,
    C1, C2, after_cons, after_nil, unary_result', unary_result_ne',
    A1_keep, C1_keep, K1_keep, L1_keep, A2a_keep, A2b_keep, C2_keep, K2_keep, L2_keep, Z_keep, Bin.keep]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v606)
        = Cert.RSide.HOut (F := F) (Cert.RSide.gath16 (m ((c.tc : Thread nD τ).loc main_arg4)) (m ((c.tc : Thread nD τ).loc main_arg0))) (Cert.RSide.gath512 (m ((c.tc : Thread nD τ).loc main_arg4)) (m ((c.tc : Thread nD τ).loc main_arg1)))
            (Cert.RSide.gath16 (m ((c.tc : Thread nD τ).loc main_arg4)) (m ((c.tc : Thread nD τ).loc main_arg2))) (Cert.RSide.gath512 (m ((c.tc : Thread nD τ).loc main_arg4)) (m ((c.tc : Thread nD τ).loc main_arg3)))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_)
    (run_seq scopedRefs_eq scopedSems_eq defs main (fun _ => opsAll) main_eq (fun _ => opsAll_good.1) m ρ (fun _ => opsAll_good.2))
  obtain ⟨k0, k1, k2, k3, k4, k5, k6, k7, k8, k9, k10⟩ := args_keep (F := F) (launchContents m c)
  exact ⟨(h c main_v606).trans (out_val (launchContents m c)), (h c main_arg0).trans k0, (h c main_arg1).trans k1,
    (h c main_arg2).trans k2, (h c main_arg3).trans k3, (h c main_arg4).trans k4, (h c main_arg5).trans k5,
    (h c main_arg6).trans k6, (h c main_arg7).trans k7, (h c main_arg8).trans k8, (h c main_arg9).trans k9,
    (h c main_arg10).trans k10⟩

end Cert.RefRun

end
-- ==== Proof.lean ====
/-
  A ranking kernel against its reference. Both look up embedding rows for two query/document pairs, normalise them, form
  each pair's cosine table, take a 21-bin soft histogram of it, apply three small affine layers and return the logistic
  function of the difference of the two scores. Under the precondition (float inputs finite, every index in
  `[0, 100000)`) both results are, row by row, the one function `Cert.Spec.out` of the same rows: equal sums of equal
  terms, and no other law of the extended reals. The idealization rewrote nothing, so `preserves` is trivial.
-/
import proofs.«417505_j37409165148283_1_alg».proof.Defs
import proofs.«417505_j37409165148283_1_alg».proof.Proof.Gen.Kernel
import proofs.«417505_j37409165148283_1_alg».proof.Proof.Gen.Kernel.Skeleton
import proofs.«417505_j37409165148283_1_alg».proof.Proof.Gen.Kernel.Launch
import proofs.«417505_j37409165148283_1_alg».proof.Proof.Gen.Kernel.Points
import proofs.«417505_j37409165148283_1_alg».proof.Proof.Gen.Kernel.Frame
import proofs.«417505_j37409165148283_1_alg».proof.Proof.Gen.KernelIdeal
import proofs.«417505_j37409165148283_1_alg».proof.Proof.Gen.KernelIdeal.Skeleton
import proofs.«417505_j37409165148283_1_alg».proof.Proof.Gen.KernelIdeal.Launch
import proofs.«417505_j37409165148283_1_alg».proof.Proof.Gen.KernelIdeal.Points
import proofs.«417505_j37409165148283_1_alg».proof.Proof.Gen.KernelIdeal.Frame
import proofs.«417505_j37409165148283_1_alg».proof.Proof.Gen.KernelIdeal.Value
import proofs.«417505_j37409165148283_1_alg».proof.Proof.Gen.ReferenceIdeal
import proofs.«417505_j37409165148283_1_alg».proof.Proof.Gen.Pre_finite_inputs
import proofs.«417505_j37409165148283_1_alg».proof.Proof.KBlocks
import proofs.«417505_j37409165148283_1_alg».proof.Proof.Bridge
import proofs.«417505_j37409165148283_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefRun.run (F := Ideal) m ρ)

/-- From memories agreeing on the arguments, the kernel ends at `Cert.KBlocks.G`, the reference at `Cert.RSide.HOut`: one function. -/
theorem algebraic : Cert.algebraic_KernelIdeal_ReferenceIdeal := by
  intro m ρ m' ρ' hpre hagree
  refine ⟨_, Cert.KBlocks.run m ρ hpre, ?_⟩
  refine (θ_run Cert.ReferenceIdeal.defs _ _).mono (fun _ h c => ⟨(h c).1.trans ?_, (h c).2⟩)
    (Cert.RefRun.run (F := Ideal) m' ρ')
  obtain ⟨h0, h1, h2, h3, h4, h5, h6, h7, h8, h9, h10⟩ := hagree c
  rw [h0, h1, h2, h3, h4, h5, h6, h7, h8, h9, h10]
  exact Cert.Bridge.result_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
